-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S100000 : Shape := ⟨1, ![100000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S64x2 .f32) (main_arg10 : FVec F S2 .f32) (main_v33 : IVec S_ 1) : IVec S_ 1 :=
  let main_v34 : FVec F S64x2 .f32 := Host.absf main_arg9
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x2 .f32) (main_arg10 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x1250000 32) (main_arg2 : IVec S100000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x2 .f32) (main_arg10 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x1250000 : Shape := ⟨2, ![2, 1250000]⟩
abbrev S100000 : Shape := ⟨1, ![100000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S100000x1 : Shape := ⟨2, ![100000, 1]⟩
abbrev S5000x64 : Shape := ⟨2, ![5000, 64]⟩
abbrev S5000x1 : Shape := ⟨2, ![5000, 1]⟩
abbrev S1250000x64 : Shape := ⟨2, ![1250000, 64]⟩
abbrev S1x64 : Shape := ⟨2, ![1, 64]⟩
abbrev S256x64 : Shape := ⟨2, ![256, 64]⟩
abbrev S256x1 : Shape := ⟨2, ![256, 1]⟩
abbrev S1x256 : Shape := ⟨2, ![1, 256]⟩
abbrev S5000x256 : Shape := ⟨2, ![5000, 256]⟩
abbrev S256x2 : Shape := ⟨2, ![256, 2]⟩
abbrev S1x2 : Shape := ⟨2, ![1, 2]⟩

abbrev nBuf : Space → Nat
  | .hbm => 83
  | .vmem => 40
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x2, .f32⟩
  | .hbm, ⟨10, _⟩ => ⟨S2, .f32⟩
  | .hbm, ⟨11, _⟩ => ⟨S1x1250000, .i32⟩
  | .hbm, ⟨12, _⟩ => ⟨S1250000, .i32⟩
  | .hbm, ⟨13, _⟩ => ⟨S1x1250000, .i32⟩
  | .hbm, ⟨14, _⟩ => ⟨S1250000, .i32⟩
  | .hbm, ⟨15, _⟩ => ⟨S_, .f32⟩
  | .hbm, ⟨16, _⟩ => ⟨S1250000, .f32⟩
  | .hbm, ⟨17, _⟩ => ⟨S_, .f32⟩
  | .hbm, ⟨18, _⟩ => ⟨S100000, .f32⟩
  | .hbm, ⟨19, _⟩ => ⟨S1250000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x64, .f32⟩
  | .hbm, ⟨27, _⟩ => ⟨S_, .i32⟩
  | .hbm, ⟨28, _⟩ => ⟨S1250000, .i32⟩
  | .hbm, ⟨29, _⟩ => ⟨S1250000, .i1⟩
  | .hbm, ⟨30, _⟩ => ⟨S_, .i32⟩
  | .hbm, ⟨31, _⟩ => ⟨S1250000, .i32⟩
  | .hbm, ⟨32, _⟩ => ⟨S1250000, .i32⟩
  | .hbm, ⟨33, _⟩ => ⟨S1250000, .i32⟩
  | .hbm, ⟨34, _⟩ => ⟨S1250000x1, .i32⟩
  | .hbm, ⟨35, _⟩ => ⟨S1250000x64, .f32⟩
  | .hbm, ⟨36, _⟩ => ⟨S_, .f32⟩
  | .hbm, ⟨37, _⟩ => ⟨S100000x64, .f32⟩
  | .hbm, ⟨38, _⟩ => ⟨S1250000x1, .i32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S1250000, .i32⟩
  | .hbm, ⟨44, _⟩ => ⟨S1250000, .i1⟩
  | .hbm, ⟨45, _⟩ => ⟨S_, .i32⟩
  | .hbm, ⟨46, _⟩ => ⟨S1250000, .i32⟩
  | .hbm, ⟨47, _⟩ => ⟨S1250000, .i32⟩
  | .hbm, ⟨48, _⟩ => ⟨S1250000, .i32⟩
  | .hbm, ⟨49, _⟩ => ⟨S1250000x1, .i32⟩
  | .hbm, ⟨50, _⟩ => ⟨S1250000x64, .f32⟩
  | .hbm, ⟨51, _⟩ => ⟨S_, .f32⟩
  | .hbm, ⟨52, _⟩ => ⟨S100000x64, .f32⟩
  | .hbm, ⟨53, _⟩ => ⟨S1250000x1, .i32⟩
  | .hbm, ⟨54, _⟩ => ⟨S100000x64, .f32⟩
  | .hbm, ⟨55, _⟩ => ⟨S1x64, .f32⟩
  | .hbm, ⟨56, _⟩ => ⟨S100000x64, .f32⟩
  | .hbm, ⟨57, _⟩ => ⟨S_, .i32⟩
  | .hbm, ⟨58, _⟩ => ⟨S1250000, .i32⟩
  | .hbm, ⟨59, _⟩ => ⟨S1250000, .i1⟩
  | .hbm, ⟨60, _⟩ => ⟨S_, .i32⟩
  | .hbm, ⟨61, _⟩ => ⟨S1250000, .i32⟩
  | .hbm, ⟨62, _⟩ => ⟨S1250000, .i32⟩
  | .hbm, ⟨63, _⟩ => ⟨S1250000, .i32⟩
  | .hbm, ⟨64, _⟩ => ⟨S1250000x1, .i32⟩
  | .hbm, ⟨65, _⟩ => ⟨S1250000x64, .f32⟩
  | .hbm, ⟨66, _⟩ => ⟨S_, .f32⟩
  | .hbm, ⟨67, _⟩ => ⟨S100000x64, .f32⟩
  | .hbm, ⟨68, _⟩ => ⟨S1250000x1, .i32⟩
  | .hbm, ⟨69, _⟩ => ⟨S100000x64, .f32⟩
  | .hbm, ⟨70, _⟩ => ⟨S100000x1, .i32⟩
  | .hbm, ⟨71, _⟩ => ⟨S1x64, .f32⟩
  | .hbm, ⟨72, _⟩ => ⟨S256x64, .f32⟩
  | .hbm, ⟨73, _⟩ => ⟨S256x1, .f32⟩
  | .hbm, ⟨74, _⟩ => ⟨S_, .f32⟩
  | .hbm, ⟨75, _⟩ => ⟨S256x1, .f32⟩
  | .hbm, ⟨76, _⟩ => ⟨S256x1, .f32⟩
  | .hbm, ⟨77, _⟩ => ⟨S256x64, .f32⟩
  | .hbm, ⟨78, _⟩ => ⟨S256x64, .f32⟩
  | .hbm, ⟨79, _⟩ => ⟨S256x2, .f32⟩
  | .hbm, ⟨80, _⟩ => ⟨S1x2, .f32⟩
  | .hbm, ⟨81, _⟩ => ⟨S256x2, .f32⟩
  | .hbm, ⟨82, _⟩ => ⟨S256x2, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x1, .f32⟩
  | .local _ .vmem, ⟨12, _⟩ => ⟨S5000x1, .f32⟩
  | .local _ .vmem, ⟨13, _⟩ => ⟨S1x64, .f32⟩
  | .local _ .vmem, ⟨14, _⟩ => ⟨S64x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x1, .f32⟩
  | .local _ .vmem, ⟨22, _⟩ => ⟨S5000x1, .f32⟩
  | .local _ .vmem, ⟨23, _⟩ => ⟨S1x64, .f32⟩
  | .local _ .vmem, ⟨24, _⟩ => ⟨S64x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x1, .f32⟩
  | .local _ .vmem, ⟨32, _⟩ => ⟨S5000x1, .f32⟩
  | .local _ .vmem, ⟨33, _⟩ => ⟨S1x64, .f32⟩
  | .local _ .vmem, ⟨34, _⟩ => ⟨S5000x1, .i32⟩
  | .local _ .vmem, ⟨35, _⟩ => ⟨S5000x1, .i32⟩
  | .local _ .vmem, ⟨36, _⟩ => ⟨S256x64, .f32⟩
  | .local _ .vmem, ⟨37, _⟩ => ⟨S256x1, .f32⟩
  | .local _ .vmem, ⟨38, _⟩ => ⟨S256x64, .f32⟩
  | .local _ .vmem, ⟨39, _⟩ => ⟨S256x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49_0 : Ref sig .tc := ⟨.hbm, 72, rfl⟩
abbrev main_v49_1 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc3_stg5_0 : Ref sig .tc := ⟨.vmem, 36, rfl⟩
abbrev cc3_stg6_0 : Ref sig .tc := ⟨.vmem, 37, rfl⟩
abbrev cc3_scratch0 : Ref sig .tc := ⟨.vmem, 38, rfl⟩
abbrev cc3_scratch1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem4_1 : DmaSem sig := 35
abbrev cc3_sem5_0 : DmaSem sig := 36
abbrev cc3_sem6_0 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x1 .i32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S256x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S1x256_d1_w32 : S1x256.Iotas .tc 32 [1]
  broadcasts_S5000x1_S5000x256 : S5000x1.Broadcasts S5000x256
  broadcasts_S1x256_S5000x256 : S1x256.Broadcasts S5000x256
  natLt_1_32 : 1 < 32
  bcast_S_S256x1 : S_.BroadcastsInDim S256x1 (![] : Fin 0 → Fin S256x1.rank)
  bcast_S256x1_S256x64_0_1 : S256x1.BroadcastsInDim S256x64 (![0, 1] : Fin 2 → Fin S256x64.rank)
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  scatter_S100000_S1250000x1_S1250000_n_0_0_1_wf : ScatterDims.WF S100000 S1250000x1 S1250000 [] [0] [0] 1
  dot_S5000x64_S64x64_S5000x64_1_0_0_1_n_n_wf : DotDims.WF S5000x64 S64x64 S5000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S5000x256_S5000x64_S256x64_0_0_1_1_n_n_wf : DotDims.WF S5000x256 S5000x64 S256x64 [0] [0] [1] [1] [] []
  dot_S5000x256_S5000x1_S256x1_0_0_1_1_n_n_wf : DotDims.WF S5000x256 S5000x1 S256x1 [0] [0] [1] [1] [] []
  dot_S256x64_S64x2_S256x2_1_0_0_1_n_n_wf : DotDims.WF S256x64 S64x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x1.size a ≤ S100000x1.size a
  hwx3_4 : ∀ i : grid3.Coords, EltTy.bits .i32 = 32 ∨ (Rect.block (s := S100000x1) S5000x1.size (cc3_transform_4 i) (hinb3_4 i)).WholeWords (EltTy.packing .i32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x64.size a ≤ S256x64.size a
  hwx3_5 : ∀ i : grid3.Coords, EltTy.bits .f32 = 32 ∨ (Rect.block (s := S256x64) S256x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256x1.size a ≤ S256x1.size a
  hwx3_6 : ∀ i : grid3.Coords, EltTy.bits .f32 = 32 ∨ (Rect.block (s := S256x1) S256x1.size (cc3_transform_6 i) (hinb3_6 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x256_S5000x64_S256x64_0_0_1_1_n_n : DotDims S5000x256 S5000x64 S256x64 where
  lhsContracting := [0]
  rhsContracting := [0]
  lhsNonContracting := [1]
  rhsNonContracting := [1]
  lhsBatch := []
  rhsBatch := []
  wf := dot_S5000x256_S5000x64_S256x64_0_0_1_1_n_n_wf
def dot_S5000x256_S5000x1_S256x1_0_0_1_1_n_n : DotDims S5000x256 S5000x1 S256x1 where
  lhsContracting := [0]
  rhsContracting := [0]
  lhsNonContracting := [1]
  rhsNonContracting := [1]
  lhsBatch := []
  rhsBatch := []
  wf := dot_S5000x256_S5000x1_S256x1_0_0_1_1_n_n_wf
def dot_S256x64_S64x2_S256x2_1_0_0_1_n_n : DotDims S256x64 S64x2 S256x2 where
  lhsContracting := [1]
  rhsContracting := [0]
  lhsNonContracting := [0]
  rhsNonContracting := [1]
  lhsBatch := []
  rhsBatch := []
  wf := dot_S256x64_S64x2_S256x2_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v46) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v48) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v47) S5000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v49_0) S256x64.size cc3_transform_5 reads3_5 true true 1 stage3_5 sem3_5
    hrank3 hreads3_5 hinb3_5 nbuf3_5 (Memref.isWhole_whole _) hwx3_5 hstage3_5

abbrev win3_6 : Pipeline.Window sig grid3 :=
  Pipeline.Window.ofSpec (Memref.whole main_v49_1) S256x1.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S100000 : Shape := ⟨1, ![100000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000x1 : Shape := ⟨2, ![100000, 1]⟩
abbrev S1x64 : Shape := ⟨2, ![1, 64]⟩
abbrev S256x64 : Shape := ⟨2, ![256, 64]⟩
abbrev S256 : Shape := ⟨1, ![256]⟩
abbrev S256x1 : Shape := ⟨2, ![256, 1]⟩
abbrev S256x2 : Shape := ⟨2, ![256, 2]⟩
abbrev S1x2 : Shape := ⟨2, ![1, 2]⟩

abbrev nBuf : Space → Nat
  | .hbm => 183
  | .vmem => 0
  | .smem => 0
  | _ => 0

abbrev hbmTy0_0 (i : Nat) : BufTy := match i % 128 with
  | 0 => ⟨S100000x64, .f32⟩
  | 1 => ⟨S2x1250000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x2, .f32⟩
  | 10 => ⟨S2, .f32⟩
  | 11 => ⟨S1x1250000, .i32⟩
  | 12 => ⟨S1250000, .i32⟩
  | 13 => ⟨S1x1250000, .i32⟩
  | 14 => ⟨S1250000, .i32⟩
  | 15 => ⟨S_, .f32⟩
  | 16 => ⟨S1250000, .f32⟩
  | 17 => ⟨S_, .f32⟩
  | 18 => ⟨S100000, .f32⟩
  | 19 => ⟨S1250000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S100000x64, .f32⟩
  | 26 => ⟨S_, .i32⟩
  | 27 => ⟨S1250000, .i32⟩
  | 28 => ⟨S1250000, .i1⟩
  | 29 => ⟨S_, .i32⟩
  | 30 => ⟨S1250000, .i32⟩
  | 31 => ⟨S1250000, .i32⟩
  | 32 => ⟨S1250000, .i32⟩
  | 33 => ⟨S1250000x1, .i32⟩
  | 34 => ⟨S1250000, .f32⟩
  | 35 => ⟨S_, .i32⟩
  | 36 => ⟨S1250000, .i32⟩
  | 37 => ⟨S1250000, .i1⟩
  | 38 => ⟨S_, .i32⟩
  | 39 => ⟨S1250000, .i32⟩
  | 40 => ⟨S1250000, .i32⟩
  | 41 => ⟨S1250000, .i32⟩
  | 42 => ⟨S1250000x1, .i32⟩
  | 43 => ⟨S1250000, .f32⟩
  | 44 => ⟨S1250000, .f32⟩
  | 45 => ⟨S1250000x1, .f32⟩
  | 46 => ⟨S_, .i32⟩
  | 47 => ⟨S1250000, .i32⟩
  | 48 => ⟨S1250000, .i1⟩
  | 49 => ⟨S_, .i32⟩
  | 50 => ⟨S1250000, .i32⟩
  | 51 => ⟨S1250000, .i32⟩
  | 52 => ⟨S1250000, .i32⟩
  | 53 => ⟨S1250000x1, .i32⟩
  | 54 => ⟨S1250000x64, .f32⟩
  | 55 => ⟨S1250000x64, .f32⟩
  | 56 => ⟨S1250000x64, .f32⟩
  | 57 => ⟨S_, .f32⟩
  | 58 => ⟨S100000x64, .f32⟩
  | 59 => ⟨S1250000x1, .i32⟩
  | 60 => ⟨S100000x64, .f32⟩
  | 61 => ⟨S100000, .f32⟩
  | 62 => ⟨S100000x1, .f32⟩
  | 63 => ⟨S100000x64, .f32⟩
  | 64 => ⟨S100000x64, .f32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S_, .i32⟩
  | 74 => ⟨S1250000, .i32⟩
  | 75 => ⟨S1250000, .i1⟩
  | 76 => ⟨S_, .i32⟩
  | 77 => ⟨S1250000, .i32⟩
  | 78 => ⟨S1250000, .i32⟩
  | 79 => ⟨S1250000, .i32⟩
  | 80 => ⟨S1250000x1, .i32⟩
  | 81 => ⟨S1250000, .f32⟩
  | 82 => ⟨S_, .i32⟩
  | 83 => ⟨S1250000, .i32⟩
  | 84 => ⟨S1250000, .i1⟩
  | 85 => ⟨S_, .i32⟩
  | 86 => ⟨S1250000, .i32⟩
  | 87 => ⟨S1250000, .i32⟩
  | 88 => ⟨S1250000, .i32⟩
  | 89 => ⟨S1250000x1, .i32⟩
  | 90 => ⟨S1250000, .f32⟩
  | 91 => ⟨S1250000, .f32⟩
  | 92 => ⟨S1250000x1, .f32⟩
  | 93 => ⟨S_, .i32⟩
  | 94 => ⟨S1250000, .i32⟩
  | 95 => ⟨S1250000, .i1⟩
  | 96 => ⟨S_, .i32⟩
  | 97 => ⟨S1250000, .i32⟩
  | 98 => ⟨S1250000, .i32⟩
  | 99 => ⟨S1250000, .i32⟩
  | 100 => ⟨S1250000x1, .i32⟩
  | 101 => ⟨S1250000x64, .f32⟩
  | 102 => ⟨S1250000x64, .f32⟩
  | 103 => ⟨S1250000x64, .f32⟩
  | 104 => ⟨S_, .f32⟩
  | 105 => ⟨S100000x64, .f32⟩
  | 106 => ⟨S1250000x1, .i32⟩
  | 107 => ⟨S100000x64, .f32⟩
  | 108 => ⟨S100000, .f32⟩
  | 109 => ⟨S100000x1, .f32⟩
  | 110 => ⟨S100000x64, .f32⟩
  | 111 => ⟨S100000x64, .f32⟩
  | 112 => ⟨S100000x64, .f32⟩
  | 113 => ⟨S1x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S100000x64, .f32⟩
  | 120 => ⟨S_, .i32⟩
  | 121 => ⟨S1250000, .i32⟩
  | 122 => ⟨S1250000, .i1⟩
  | 123 => ⟨S_, .i32⟩
  | 124 => ⟨S1250000, .i32⟩
  | 125 => ⟨S1250000, .i32⟩
  | 126 => ⟨S1250000, .i32⟩
  | 127 => ⟨S1250000x1, .i32⟩
  | _ => ⟨S100000x64, .f32⟩

abbrev hbmTy0_1 (i : Nat) : BufTy := match i % 128 with
  | 0 => ⟨S1250000, .f32⟩
  | 1 => ⟨S_, .i32⟩
  | 2 => ⟨S1250000, .i32⟩
  | 3 => ⟨S1250000, .i1⟩
  | 4 => ⟨S_, .i32⟩
  | 5 => ⟨S1250000, .i32⟩
  | 6 => ⟨S1250000, .i32⟩
  | 7 => ⟨S1250000, .i32⟩
  | 8 => ⟨S1250000x1, .i32⟩
  | 9 => ⟨S1250000, .f32⟩
  | 10 => ⟨S1250000, .f32⟩
  | 11 => ⟨S1250000x1, .f32⟩
  | 12 => ⟨S_, .i32⟩
  | 13 => ⟨S1250000, .i32⟩
  | 14 => ⟨S1250000, .i1⟩
  | 15 => ⟨S_, .i32⟩
  | 16 => ⟨S1250000, .i32⟩
  | 17 => ⟨S1250000, .i32⟩
  | 18 => ⟨S1250000, .i32⟩
  | 19 => ⟨S1250000x1, .i32⟩
  | 20 => ⟨S1250000x64, .f32⟩
  | 21 => ⟨S1250000x64, .f32⟩
  | 22 => ⟨S1250000x64, .f32⟩
  | 23 => ⟨S_, .f32⟩
  | 24 => ⟨S100000x64, .f32⟩
  | 25 => ⟨S1250000x1, .i32⟩
  | 26 => ⟨S100000x64, .f32⟩
  | 27 => ⟨S100000, .f32⟩
  | 28 => ⟨S100000x1, .f32⟩
  | 29 => ⟨S100000x64, .f32⟩
  | 30 => ⟨S100000x64, .f32⟩
  | 31 => ⟨S100000x64, .f32⟩
  | 32 => ⟨S1x64, .f32⟩
  | 33 => ⟨S100000x64, .f32⟩
  | 34 => ⟨S100000x64, .f32⟩
  | 35 => ⟨S_, .f32⟩
  | 36 => ⟨S256x64, .f32⟩
  | 37 => ⟨S100000x1, .i32⟩
  | 38 => ⟨S256x64, .f32⟩
  | 39 => ⟨S_, .f32⟩
  | 40 => ⟨S100000, .f32⟩
  | 41 => ⟨S_, .f32⟩
  | 42 => ⟨S256, .f32⟩
  | 43 => ⟨S100000x1, .i32⟩
  | 44 => ⟨S256, .f32⟩
  | 45 => ⟨S_, .f32⟩
  | 46 => ⟨S256, .f32⟩
  | 47 => ⟨S256, .f32⟩
  | 48 => ⟨S256x1, .f32⟩
  | 49 => ⟨S256x64, .f32⟩
  | 50 => ⟨S256x64, .f32⟩
  | 51 => ⟨S256x2, .f32⟩
  | 52 => ⟨S1x2, .f32⟩
  | 53 => ⟨S256x2, .f32⟩
  | 54 => ⟨S256x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_c_8 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_10 : Ref sig .tc := ⟨.hbm, 82, rfl⟩
abbrev main_v57 : Ref sig .tc := ⟨.hbm, 83, rfl⟩
abbrev main_v58 : Ref sig .tc := ⟨.hbm, 84, rfl⟩
abbrev main_c_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_12 : Ref sig .tc := ⟨.hbm, 93, rfl⟩
abbrev main_v66 : Ref sig .tc := ⟨.hbm, 94, rfl⟩
abbrev main_v67 : Ref sig .tc := ⟨.hbm, 95, rfl⟩
abbrev main_c_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_14 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_call1_cst : Ref sig .tc := ⟨.hbm, 116, rfl⟩
abbrev main_call1_v0 : Ref sig .tc := ⟨.hbm, 117, rfl⟩
abbrev main_v86 : Ref sig .tc := ⟨.hbm, 118, rfl⟩
abbrev main_v87 : Ref sig .tc := ⟨.hbm, 119, rfl⟩
abbrev main_c_15 : Ref sig .tc := ⟨.hbm, 120, rfl⟩
abbrev main_v88 : Ref sig .tc := ⟨.hbm, 121, rfl⟩
abbrev main_v89 : Ref sig .tc := ⟨.hbm, 122, rfl⟩
abbrev main_c_16 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_c_17 : Ref sig .tc := ⟨.hbm, 129, rfl⟩
abbrev main_v95 : Ref sig .tc := ⟨.hbm, 130, rfl⟩
abbrev main_v96 : Ref sig .tc := ⟨.hbm, 131, rfl⟩
abbrev main_c_18 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_c_19 : Ref sig .tc := ⟨.hbm, 140, rfl⟩
abbrev main_v104 : Ref sig .tc := ⟨.hbm, 141, rfl⟩
abbrev main_v105 : Ref sig .tc := ⟨.hbm, 142, rfl⟩
abbrev main_c_20 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_cst_21 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_22 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_cst_23 : Ref sig .tc := ⟨.hbm, 167, rfl⟩
abbrev main_v127 : Ref sig .tc := ⟨.hbm, 168, rfl⟩
abbrev main_cst_24 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_cst_25 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  scatter_S100000_S1250000x1_S1250000_n_0_0_1_wf : ScatterDims.WF S100000 S1250000x1 S1250000 [] [0] [0] 1
  dot_S100000x64_S64x64_S100000x64_1_0_0_1_n_n_wf : DotDims.WF S100000x64 S64x64 S100000x64 [1] [0] [0] [1] [] []
  gather_S100000_S1250000x1_S1250000_n_0_n_n_0_1_1_wf : GatherDims.WF S100000 S1250000x1 S1250000 [] [0] [] [0] [] 1 ![1]
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x2_S256x2_1_0_0_1_n_n_wf : DotDims.WF S256x64 S64x2 S256x2 [1] [0] [0] [1] [] []

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x2_S256x2_1_0_0_1_n_n : DotDims S256x64 S64x2 S256x2 where
  lhsContracting := [1]
  rhsContracting := [0]
  lhsNonContracting := [0]
  rhsNonContracting := [1]
  lhsBatch := []
  rhsBatch := []
  wf := dot_S256x64_S64x2_S256x2_1_0_0_1_n_n_wf

class Facts : Prop extends Facts₀ where

variable [Facts]
-- ==== Proof.LibWhole.lean ====
import Idealize.ShloMosaic.Lib.Pipeline.FrameBody
import Idealize.ShloMosaic.Lib.Pipeline.Value

noncomputable section

namespace Cert.Whole

open Idealize.ShloMosaic

theorem hz2 : (![0, 0] : Fin 2 → ℕ) = fun _ => 0 := by funext a; fin_cases a <;> rfl

-- After a last store through the rectangle of the shape's own extents at offset zero, the contents read that store's payload.
theorem read_writes_whole {Val : EltTy → Type} [∀ e, Nonempty (Val e)] {S : Shape} {e : EltTy} {off : Fin S.rank → Nat}
    {sig : RefSig} {κ : Kind} {sp : Space} (v : View sig κ sp S e) (f : v.ty.Contents Val) (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩), View.canon_cons_unit_zero h inb]

end Cert.Whole

end
-- ==== Proof.K.Rg0.lean ====
import proofs.«428185_j66005057405150_3_alg».proof.Proof.Gen.Kernel
import proofs.«428185_j66005057405150_3_alg».proof.Proof.Gen.Kernel.Skeleton
import proofs.«428185_j66005057405150_3_alg».proof.Proof.Gen.Kernel.Launch
import proofs.«428185_j66005057405150_3_alg».proof.Proof.Gen.Kernel.Points
import proofs.«428185_j66005057405150_3_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Rg

open Cert.Kernel Cert.Kernel.Gen Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_3 (x0 : Vec F S5000x64 .f32) (x1 : Vec F S64x64 .f32) (x2 : Vec F S5000x1 .f32) : Vec F S5000x64 .f32 := k0_pay1 x0 x1 x2

theorem out0_3_eq (x0 : Vec F S5000x64 .f32) (x1 : Vec F S64x64 .f32) (x2 : Vec F S5000x1 .f32) :
    out0_3 x0 x1 x2 = k0_pay1 x0 x1 x2 := rfl

-- Run on its operands' contents, the body leaves  d ⊙ (bf16 X · bf16 W)  in its last operand and the others unchanged.
set_option maxHeartbeats 1000000 in
theorem sound_kernel0 (c : Dev nD) (E : Set ℕ) (i : grid0.Coords)
    (arg1 : Memref sig .tc .vmem S5000x64 .f32) (harg1 : arg1.IsWhole) (arg2 : Memref sig .tc .vmem S64x64 .f32) (harg2 : arg2.IsWhole)
    (arg3 : Memref sig .tc .vmem S5000x1 .f32) (harg3 : arg3.IsWhole) (arg4 : Memref sig .tc .vmem S5000x64 .f32) (harg4 : arg4.IsWhole)
    (x0 : Vec F S5000x64 .f32) (x1 : Vec F S64x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_dinv_kernel i arg1 harg1 arg2 harg2 arg3 harg3 arg4 harg4) K := by
  simp only [cc0__matmul_dinv_kernel_eq_skeleton]; unfold cc0__matmul_dinv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  iexists _; isplitr; swap; · iexact H3
  ipureintro
  rw [read_writes_whole _ _ hz2]
  simp only [View.readAt_eq_ld, View.ld_unit_zero (S := S5000x64) hz2, View.ld_unit_zero (S := S64x64) hz2, View.ld_unit_zero (S := S5000x1) hz2]
  rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_0 (c : Dev nD) (t : Fin cfg0.N) : (dat0 V c).after 0 t = iblk0 V c 0 t := rfl
theorem after0_1 (c : Dev nD) (t : Fin cfg0.N) : (dat0 V c).after 1 t = iblk0 V c 1 t := rfl
theorem after0_2 (c : Dev nD) (t : Fin cfg0.N) : (dat0 V c).after 2 t = iblk0 V c 2 t := rfl
theorem after0_3 (c : Dev nD) (t : Fin cfg0.N) :
    (dat0 V c).after 3 t = out0_3 (iblk0 V c 0 t) (iblk0 V c 1 t) (iblk0 V c 2 t) := rfl

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  simp only [before0_0, before0_1, before0_2]
  rw [show (dat0 V c).Φ t.succ = (dat0 V c).Φ t.castSucc from rfl,
    show (dat0 V c).owesAt () t.succ = (dat0 V c).owesAt () t.castSucc from rfl, after0_0, after0_1, after0_2, after0_3]
  show _ ⊢ wp _ _ _ (bodyAt0 t) _
  unfold bodyAt0
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  iframe

end Cert.Kernel.Rg

end
-- ==== Proof.K.Rg1.lean ====
import proofs.«428185_j66005057405150_3_alg».proof.Proof.Gen.Kernel
import proofs.«428185_j66005057405150_3_alg».proof.Proof.Gen.Kernel.Skeleton
import proofs.«428185_j66005057405150_3_alg».proof.Proof.Gen.Kernel.Launch
import proofs.«428185_j66005057405150_3_alg».proof.Proof.Gen.Kernel.Points
import proofs.«428185_j66005057405150_3_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Rg

open Cert.Kernel Cert.Kernel.Gen Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_5 (x0 x1 : Vec F S5000x64 .f32) (x2 : Vec F S5000x1 .f32) (x3 : Vec F S1x64 .f32) (x4 : Vec F S64x64 .f32) : Vec F S5000x64 .f32 :=
  k1_pay1 x2 x0 x1 x3 x4 x2

theorem out1_5_eq (x0 x1 : Vec F S5000x64 .f32) (x2 : Vec F S5000x1 .f32) (x3 : Vec F S1x64 .f32) (x4 : Vec F S64x64 .f32) :
    out1_5 x0 x1 x2 x3 x4 = k1_pay1 x2 x0 x1 x3 x4 x2 := rfl

-- Run on its operands' contents, the body leaves  d ⊙ (bf16 (relu (d ⊙ (a + h) + b)) · bf16 W)  in its last operand and the others unchanged.
set_option maxHeartbeats 1000000 in
theorem sound_kernel1 (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S5000x1 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S5000x64 .f32) (harg6 : arg6.IsWhole)
    (x0 x1 : Vec F S5000x64 .f32) (x2 : Vec F S5000x1 .f32) (x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__fused_finalize_matmul_kernel i arg1 harg1 arg2 harg2 arg3 harg3 arg4 harg4 arg5 harg5 arg6 harg6) K := by
  simp only [cc1__fused_finalize_matmul_kernel_eq_skeleton]; unfold cc1__fused_finalize_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  iexists _; isplitr; swap; · iexact H5
  ipureintro
  rw [read_writes_whole _ _ hz2]
  simp only [View.readAt_eq_ld, View.ld_unit_zero (S := S5000x64) hz2, View.ld_unit_zero (S := S5000x1) hz2, View.ld_unit_zero (S := S1x64) hz2, View.ld_unit_zero (S := S64x64) hz2]
  rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := rfl

theorem after1_0 (c : Dev nD) (t : Fin cfg1.N) : (dat1 V c).after 0 t = iblk1 V c 0 t := rfl
theorem after1_1 (c : Dev nD) (t : Fin cfg1.N) : (dat1 V c).after 1 t = iblk1 V c 1 t := rfl
theorem after1_2 (c : Dev nD) (t : Fin cfg1.N) : (dat1 V c).after 2 t = iblk1 V c 2 t := rfl
theorem after1_3 (c : Dev nD) (t : Fin cfg1.N) : (dat1 V c).after 3 t = iblk1 V c 3 t := rfl
theorem after1_4 (c : Dev nD) (t : Fin cfg1.N) : (dat1 V c).after 4 t = iblk1 V c 4 t := rfl
theorem after1_5 (c : Dev nD) (t : Fin cfg1.N) :
    (dat1 V c).after 5 t = out1_5 (iblk1 V c 0 t) (iblk1 V c 1 t) (iblk1 V c 2 t) (iblk1 V c 3 t) (iblk1 V c 4 t) := rfl

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d

theorem body_obligation1 (c : Dev nD) : BodyObligation (dat1 (F := F) V c) (defs₀ (F := F)) Variants.none () Set.univ := fun t => by
  rw [bigSep_W1, bigSep_W1]
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  show _ ⊢ wp _ _ _ (bodyAt1 t) _
  unfold bodyAt1
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  iframe

end Cert.Kernel.Rg

end
-- ==== Proof.K.Rg2.lean ====
import proofs.«428185_j66005057405150_3_alg».proof.Proof.Gen.Kernel
import proofs.«428185_j66005057405150_3_alg».proof.Proof.Gen.Kernel.Skeleton
import proofs.«428185_j66005057405150_3_alg».proof.Proof.Gen.Kernel.Launch
import proofs.«428185_j66005057405150_3_alg».proof.Proof.Gen.Kernel.Points
import proofs.«428185_j66005057405150_3_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Rg

open Cert.Kernel Cert.Kernel.Gen Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_5 (x0 x1 : Vec F S5000x64 .f32) (x2 : Vec F S5000x1 .f32) (x3 : Vec F S1x64 .f32) (x4 : Vec F S64x64 .f32) : Vec F S5000x64 .f32 :=
  k2_pay1 x2 x0 x1 x3 x4 x2

theorem out2_5_eq (x0 x1 : Vec F S5000x64 .f32) (x2 : Vec F S5000x1 .f32) (x3 : Vec F S1x64 .f32) (x4 : Vec F S64x64 .f32) :
    out2_5 x0 x1 x2 x3 x4 = k2_pay1 x2 x0 x1 x3 x4 x2 := rfl

-- Run on its operands' contents, the body leaves  d ⊙ (bf16 (relu (d ⊙ (a + h) + b)) · bf16 W)  in its last operand and the others unchanged.
set_option maxHeartbeats 1000000 in
theorem sound_kernel2 (c : Dev nD) (E : Set ℕ) (i : grid2.Coords)
    (arg1 : Memref sig .tc .vmem S5000x64 .f32) (harg1 : arg1.IsWhole) (arg2 : Memref sig .tc .vmem S5000x64 .f32) (harg2 : arg2.IsWhole)
    (arg3 : Memref sig .tc .vmem S5000x1 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S5000x64 .f32) (harg6 : arg6.IsWhole)
    (x0 x1 : Vec F S5000x64 .f32) (x2 : Vec F S5000x1 .f32) (x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2__fused_finalize_matmul_kernel i arg1 harg1 arg2 harg2 arg3 harg3 arg4 harg4 arg5 harg5 arg6 harg6) K := by
  simp only [cc2__fused_finalize_matmul_kernel_eq_skeleton]; unfold cc2__fused_finalize_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  iexists _; isplitr; swap; · iexact H5
  ipureintro
  rw [read_writes_whole _ _ hz2]
  simp only [View.readAt_eq_ld, View.ld_unit_zero (S := S5000x64) hz2, View.ld_unit_zero (S := S5000x1) hz2, View.ld_unit_zero (S := S1x64) hz2, View.ld_unit_zero (S := S64x64) hz2]
  rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := rfl

theorem after2_0 (c : Dev nD) (t : Fin cfg2.N) : (dat2 V c).after 0 t = iblk2 V c 0 t := rfl
theorem after2_1 (c : Dev nD) (t : Fin cfg2.N) : (dat2 V c).after 1 t = iblk2 V c 1 t := rfl
theorem after2_2 (c : Dev nD) (t : Fin cfg2.N) : (dat2 V c).after 2 t = iblk2 V c 2 t := rfl
theorem after2_3 (c : Dev nD) (t : Fin cfg2.N) : (dat2 V c).after 3 t = iblk2 V c 3 t := rfl
theorem after2_4 (c : Dev nD) (t : Fin cfg2.N) : (dat2 V c).after 4 t = iblk2 V c 4 t := rfl
theorem after2_5 (c : Dev nD) (t : Fin cfg2.N) :
    (dat2 V c).after 5 t = out2_5 (iblk2 V c 0 t) (iblk2 V c 1 t) (iblk2 V c 2 t) (iblk2 V c 3 t) (iblk2 V c 4 t) := rfl

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2]
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  show _ ⊢ wp _ _ _ (bodyAt2 t) _
  unfold bodyAt2
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  iframe

end Cert.Kernel.Rg

end
-- ==== Proof.K.Asm.lean ====
import proofs.«428185_j66005057405150_3_alg».proof.Proof.Gen.Kernel.Regions
import proofs.«428185_j66005057405150_3_alg».proof.Proof.K.Rg0
import proofs.«428185_j66005057405150_3_alg».proof.Proof.K.Rg1
import proofs.«428185_j66005057405150_3_alg».proof.Proof.K.Rg2

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev U1 (c : Dev nD) : Valuation τ sig (Elt F) := V1 m c

abbrev W1 : (c : Dev nD) → (b : Ref sig .tc) → Buf (Elt F) ((c : Thread nD τ).loc b) := fun c b => U1 m c b

def o2 (c : Dev nD) : Buf (Elt F) ((c : Thread nD τ).loc main_v12) := (dat0 (W1 m) c).arrAt 3 cfg0.N

def U3 (c : Dev nD) : Valuation τ sig (Elt F) := StableHlo.after hostOps1 (Function.update (U1 m c) main_v12 (o2 m c))
abbrev W3 : (c : Dev nD) → (b : Ref sig .tc) → Buf (Elt F) ((c : Thread nD τ).loc b) := fun c b => U3 m c b

def o4 (c : Dev nD) : Buf (Elt F) ((c : Thread nD τ).loc main_v24) := (dat1 (W3 m) c).arrAt 5 cfg1.N

def U5 (c : Dev nD) : Valuation τ sig (Elt F) := StableHlo.after hostOps2 (Function.update (U3 m c) main_v24 (o4 m c))
abbrev W5 : (c : Dev nD) → (b : Ref sig .tc) → Buf (Elt F) ((c : Thread nD τ).loc b) := fun c b => U5 m c b

def o6 (c : Dev nD) : Buf (Elt F) ((c : Thread nD τ).loc main_v36) := (dat2 (W5 m) c).arrAt 5 cfg2.N

def U7 (c : Dev nD) : Valuation τ sig (Elt F) := StableHlo.after hostOps3 (Function.update (U5 m c) main_v36 (o6 m c))
abbrev W7 : (c : Dev nD) → (b : Ref sig .tc) → Buf (Elt F) ((c : Thread nD τ).loc b) := fun c b => U7 m c b

section Outs

variable (o8a : (c : Dev nD) → Buf (Elt F) ((c : Thread nD τ).loc main_v49_0))
  (o8b : (c : Dev nD) → Buf (Elt F) ((c : Thread nD τ).loc main_v49_1))

def outs : Outs (F := F) := fun J r c =>
  if h : J = 2 ∧ r = main_v12 then h.2 ▸ o2 m c
  else if h : J = 4 ∧ r = main_v24 then h.2 ▸ o4 m c
  else if h : J = 6 ∧ r = main_v36 then h.2 ▸ o6 m c
  else if h : J = 8 ∧ r = main_v49_0 then h.2 ▸ o8a c
  else if h : J = 8 ∧ r = main_v49_1 then h.2 ▸ o8b c
  else V1 m c r

theorem outs_2 (c : Dev nD) : outs m o8a o8b 2 main_v12 c = o2 m c := by
  unfold outs; rw [dif_pos ⟨rfl, rfl⟩]
theorem outs_4 (c : Dev nD) : outs m o8a o8b 4 main_v24 c = o4 m c := by
  unfold outs; rw [dif_neg (by decide), dif_pos ⟨rfl, rfl⟩]
theorem outs_6 (c : Dev nD) : outs m o8a o8b 6 main_v36 c = o6 m c := by
  unfold outs; rw [dif_neg (by decide), dif_neg (by decide), dif_pos ⟨rfl, rfl⟩]
theorem outs_8a (c : Dev nD) : outs m o8a o8b 8 main_v49_0 c = o8a c := by
  unfold outs; rw [dif_neg (by decide), dif_neg (by decide), dif_neg (by decide), dif_pos ⟨rfl, rfl⟩]
theorem outs_8b (c : Dev nD) : outs m o8a o8b 8 main_v49_1 c = o8b c := by
  unfold outs; rw [dif_neg (by decide), dif_neg (by decide), dif_neg (by decide), dif_neg (by decide), dif_pos ⟨rfl, rfl⟩]

theorem V2_eq (c : Dev nD) : V2 m (outs m o8a o8b) c = Function.update (U1 m c) main_v12 (o2 m c) := by
  show Function.update (V1 m c) main_v12 (outs m o8a o8b 2 main_v12 c) = _
  rw [outs_2]
theorem V3_eq (c : Dev nD) : V3 m (outs m o8a o8b) c = U3 m c := by
  show StableHlo.after hostOps1 (V2 m (outs m o8a o8b) c) = _
  rw [V2_eq]; rfl
theorem V4_eq (c : Dev nD) : V4 m (outs m o8a o8b) c = Function.update (U3 m c) main_v24 (o4 m c) := by
  show Function.update (V3 m (outs m o8a o8b) c) main_v24 (outs m o8a o8b 4 main_v24 c) = _
  rw [V3_eq, outs_4]
theorem V5_eq (c : Dev nD) : V5 m (outs m o8a o8b) c = U5 m c := by
  show StableHlo.after hostOps2 (V4 m (outs m o8a o8b) c) = _
  rw [V4_eq]; rfl
theorem V6_eq (c : Dev nD) : V6 m (outs m o8a o8b) c = Function.update (U5 m c) main_v36 (o6 m c) := by
  show Function.update (V5 m (outs m o8a o8b) c) main_v36 (outs m o8a o8b 6 main_v36 c) = _
  rw [V5_eq, outs_6]
theorem V7_eq (c : Dev nD) : V7 m (outs m o8a o8b) c = U7 m c := by
  show StableHlo.after hostOps3 (V6 m (outs m o8a o8b) c) = _
  rw [V6_eq]; rfl

end Outs

theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem ride_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem ride_end (c : Dev nD) :
    R (F := F) c ⊢ (iprop(∃ W, owes (c : Thread nD τ) (0 : CellTallies nD τ sig Unit) W) : sProp 𝕄) := by
  iintro ⟨-, HO⟩; iexact HO

end Cert.Kernel.Rg

end
-- ==== Proof.K.Rg3.lean ====
import proofs.«428185_j66005057405150_3_alg».proof.Proof.Gen.Kernel
import proofs.«428185_j66005057405150_3_alg».proof.Proof.Gen.Kernel.Skeleton
import proofs.«428185_j66005057405150_3_alg».proof.Proof.Gen.Kernel.Launch
import proofs.«428185_j66005057405150_3_alg».proof.Proof.Gen.Kernel.Points
import proofs.«428185_j66005057405150_3_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3 (i : grid3.Coords) : Prop := (Scalar.cmpi .ne (Scalar.extui (Scalar.cmpi .eq (BitVec.ofNat 32 (i 0).val) 0#32)) 0#32) = 1#1
theorem hcond3 : ∀ t : Fin cfg3.N, cond3 (grid3.coords t) ↔ t.val = 0 :=
  (by decide +kernel : ∀ t : Fin grid3.N, cond3 (grid3.coords t) ↔ t.val = 0)

def stepS (x0 x1 : Vec F S5000x64 .f32) (x2 : Vec F S5000x1 .f32) (x3 : Vec F S1x64 .f32) (x4 : Vec F S5000x1 .i32) : Vec F S256x64 .f32 :=
  have v4 : FVec F S5000x1 .f32 := shapeCast S5000x1 x2 shapeCasts_S5000x1_S5000x1
  have v6 : FVec F S5000x64 .f32 := shapeCast S5000x64 x0 shapeCasts_S5000x64_S5000x64
  have v8 : FVec F S5000x64 .f32 := shapeCast S5000x64 x1 shapeCasts_S5000x64_S5000x64
  have v9 : FVec F S5000x64 .f32 := addf v6 v8
  have v10 : FVec F S5000x64 .f32 := broadcastTo S5000x64 v4 broadcasts_S5000x1_S5000x64
  have v11 : FVec F S5000x64 .f32 := mulf v10 v9
  have v13 : FVec F S1x64 .f32 := shapeCast S1x64 x3 shapeCasts_S1x64_S1x64
  have v14 : FVec F S5000x64 .f32 := broadcastTo S5000x64 v13 broadcasts_S1x64_S5000x64
  have v15 : FVec F S5000x64 .f32 := addf v11 v14
  have v25 : FVec F S5000x64 .bf16 := truncf .bf16 v15 bitsLt_bf16_f32
  have cst : FVec F S256x64 .f32 := constant S256x64 .f32 0x00000000#32
  matmul dot_S5000x256_S5000x64_S256x64_0_0_1_1_n_n none (k3_pay4 x4) v25 cst

def stepC (x4 : Vec F S5000x1 .i32) : Vec F S256x1 .f32 :=
  have cst_14 : F .bf16 := Scalar.ofBits .bf16 0x3F80#16
  have v32 : FVec F S5000x1 .bf16 := broadcast S5000x1 cst_14
  have cst_17 : FVec F S256x1 .f32 := constant S256x1 .f32 0x00000000#32
  matmul dot_S5000x256_S5000x1_S256x1_0_0_1_1_n_n none (k3_pay4 x4) v32 cst_17

theorem k3_pay5_eq_add (x0 x1 : Vec F S5000x64 .f32) (x2 : Vec F S5000x1 .f32) (x3 : Vec F S1x64 .f32) (x4 : Vec F S5000x1 .i32)
    (a : Vec F S256x64 .f32) : k3_pay5 x2 x0 x1 x3 x4 a = addf a (stepS x0 x1 x2 x3 x4) :=
  shapeCast_self _ _

theorem k3_pay1_pay6_eq_add (x4 : Vec F S5000x1 .i32) (a : Vec F S256x1 .f32) : k3_pay1 (k3_pay6 x4 a) = addf a (stepC x4) :=
  shapeCast_self _ _

def accAt3 (c : Dev nD) : (n : ℕ) → n < cfg3.N → Vec F S256x64 .f32 × Vec F S256x1 .f32
  | 0, hn => (addf (k3_pay2 (F := F)) (stepS (iblk3 V c 0 ⟨0, hn⟩) (iblk3 V c 1 ⟨0, hn⟩) (iblk3 V c 2 ⟨0, hn⟩) (iblk3 V c 3 ⟨0, hn⟩) (iblk3 V c 4 ⟨0, hn⟩)),
      addf (k3_pay3 (F := F)) (stepC (iblk3 V c 4 ⟨0, hn⟩)))
  | n + 1, hn => (addf (accAt3 c n (Nat.lt_of_succ_lt hn)).1 (stepS (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩)),
      addf (accAt3 c n (Nat.lt_of_succ_lt hn)).2 (stepC (iblk3 V c 4 ⟨n + 1, hn⟩)))

theorem accAt3_zero (c : Dev nD) (hn : 0 < cfg3.N) :
    accAt3 V c 0 hn = (addf (k3_pay2 (F := F)) (stepS (iblk3 V c 0 ⟨0, hn⟩) (iblk3 V c 1 ⟨0, hn⟩) (iblk3 V c 2 ⟨0, hn⟩) (iblk3 V c 3 ⟨0, hn⟩) (iblk3 V c 4 ⟨0, hn⟩)),
      addf (k3_pay3 (F := F)) (stepC (iblk3 V c 4 ⟨0, hn⟩))) := rfl

theorem accAt3_succ (c : Dev nD) (n : ℕ) (hn : n + 1 < cfg3.N) :
    accAt3 V c (n + 1) hn = (addf (accAt3 V c n (Nat.lt_of_succ_lt hn)).1 (stepS (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩)),
      addf (accAt3 V c n (Nat.lt_of_succ_lt hn)).2 (stepC (iblk3 V c 4 ⟨n + 1, hn⟩))) := rfl

abbrev scM3_0 : Memref sig .tc .vmem S256x64 .f32 := Memref.whole cc3_scratch0
abbrev scM3_1 : Memref sig .tc .vmem S256x1 .f32 := Memref.whole cc3_scratch1

theorem PhiA3_eq (c : Dev nD) :
    (Pipeline.ΦA spec3 c : sProp 𝕄)
      = iprop(iprop(iprop((∃ d, owns c.tc scM3_0 fullShare d) ∗ (∃ d, owns c.tc scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

def PhiN3 (c : Dev nD) (a : Vec F S256x64 .f32 × Vec F S256x1 .f32) : sProp 𝕄 :=
  iprop(iprop(iprop(owns c.tc scM3_0 fullShare a.1 ∗ owns c.tc scM3_1 fullShare a.2)
      ∗ Pipeline.scopedRestBut (Ix := Unit) (Name := ℕ) (U := UR sig nD τ) (Lvl := ℕ) (Val := Elt F) spec3 c [cc3_scratch0, cc3_scratch1]) ∗ (∃ r, prngReg c r))

-- Named contents may be forgotten.
theorem PhiN3_out (c : Dev nD) (a : Vec F S256x64 .f32 × Vec F S256x1 .f32) : PhiN3 c a ⊢ Pipeline.ΦA spec3 c := by
  rw [PhiA3_eq]; unfold PhiN3
  iintro ⟨⟨⟨HS0, HS1⟩, HR⟩, Hg⟩
  iframe HR Hg
  isplitl [HS0] <;> iexists _ <;> iassumption

def PhiS3 (c : Dev nD) : (n : ℕ) → n ≤ cfg3.N → sProp 𝕄
  | 0, _ => Pipeline.ΦA spec3 c
  | n + 1, hn => PhiN3 c (accAt3 V c n hn)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (accAt3 V c t.val t.isLt).1
    | ⟨6, _⟩ => (accAt3 V c t.val t.isLt).2
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_5 (c : Dev nD) (t : Fin cfg3.N) : (dat3 V c).after 5 t = (accAt3 V c t.val t.isLt).1 := by dsimp only [dat3]
theorem after3_6 (c : Dev nD) (t : Fin cfg3.N) : (dat3 V c).after 6 t = (accAt3 V c t.val t.isLt).2 := by dsimp only [dat3]

theorem before3 (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t)
      ∧ (∀ d, (dat3 V c).before 3 t d = iblk3 V c 3 t) ∧ (∀ d, (dat3 V c).before 4 t d = iblk3 V c 4 t) := by
  refine ⟨?_, ?_, ?_, ?_, ?_⟩ <;> exact (dat3 V c).before_in_eq_fetched _ rfl (fun _ => rfl) (fun _ _ _ => rfl) (fun _ => rfl) t

theorem hin3 (c : Dev nD) : Pipeline.ΦA spec3 c ⊢ (dat3 V c).Φ 0 := by rfl

theorem hout3 (c : Dev nD) : (dat3 V c).Φ (Fin.last cfg3.N) ⊢ Pipeline.ΦA spec3 c :=
  PhiN3_out c (accAt3 V c 19 _)

-- a0 and a1 are what the point's contribution is added to: zero at the first point, the running totals afterwards.
theorem sound_kernel3 (c : Dev nD) (E : Set ℕ) {i : grid3.Coords} {arg1 : Memref sig .tc .vmem S5000x64 .f32} {harg1 : arg1.IsWhole} {arg2 : Memref sig .tc .vmem S5000x64 .f32} {harg2 : arg2.IsWhole} {arg3 : Memref sig .tc .vmem S5000x1 .f32} {harg3 : arg3.IsWhole} {arg4 : Memref sig .tc .vmem S1x64 .f32} {harg4 : arg4.IsWhole} {arg5 : Memref sig .tc .vmem S5000x1 .i32} {harg5 : arg5.IsWhole} {arg6 : Memref sig .tc .vmem S256x64 .f32} {harg6 : arg6.IsWhole} {arg7 : Memref sig .tc .vmem S256x1 .f32} {harg7 : arg7.IsWhole}
    {x0 x1 : Vec F S5000x64 .f32} {x2 : Vec F S5000x1 .f32} {x3 : Vec F S1x64 .f32} {x4 : Vec F S5000x1 .i32}
    {xs0 a0 : Vec F S256x64 .f32} {xs1 a1 : Vec F S256x1 .f32}
    (h : cond3 i ∧ a0 = k3_pay2 ∧ a1 = k3_pay3 ∨ ¬cond3 i ∧ a0 = xs0 ∧ a1 = xs1) (K : PUnit → sProp 𝕄) :
    ⊢ iprop(owns c.tc arg1 fullShare x0 -∗ owns c.tc arg2 fullShare x1 -∗ owns c.tc arg3 fullShare x2
        -∗ owns c.tc arg4 fullShare x3 -∗ owns c.tc arg5 fullShare x4
        -∗ (∃ d, owns c.tc arg6 fullShare d) -∗ (∃ d, owns c.tc arg7 fullShare d)
        -∗ owns c.tc scM3_0 fullShare xs0 -∗ owns c.tc scM3_1 fullShare xs1
        -∗ (iprop(owns c.tc arg1 fullShare x0 ∗ owns c.tc arg2 fullShare x1 ∗ owns c.tc arg3 fullShare x2
        ∗ owns c.tc arg4 fullShare x3 ∗ owns c.tc arg5 fullShare x4
            ∗ owns c.tc arg6 fullShare (addf a0 (stepS x0 x1 x2 x3 x4)) ∗ owns c.tc arg7 fullShare (addf a1 (stepC x4))
            ∗ owns c.tc scM3_0 fullShare (addf a0 (stepS x0 x1 x2 x3 x4)) ∗ owns c.tc scM3_1 fullShare (addf a1 (stepC x4))) -∗ K ⟨⟩)
        -∗ wp frame (wpE (defs₀ (F := F)) Variants.none c none) E (cc3__pool_fused_kernel i arg1 harg1 arg2 harg2 arg3 harg3 arg4 harg4 arg5 harg5 arg6 harg6 arg7 harg7 scM3_0 (Memref.isWhole_whole _) scM3_1 (Memref.isWhole_whole _)) K) := by
  simp only [cc3__pool_fused_kernel_eq_skeleton]; unfold cc3__pool_fused_kernel_skel
  simp only [k3_part1_eq_skeleton]
  unfold owns
  iintro ⟨%f0, %hf0, H0⟩ ⟨%f1, %hf1, H1⟩ ⟨%f2, %hf2, H2⟩ ⟨%f3, %hf3, H3⟩ ⟨%f4, %hf4, H4⟩ ⟨%d5, %f5, -, H5⟩ ⟨%d6, %f6, -, H6⟩ ⟨%f7, %hf7, H7⟩ ⟨%f8, %hf8, H8⟩ Hk
  subst hf0 hf1 hf2 hf3 hf4 hf7 hf8
  rcases h with ⟨hc, rfl, rfl⟩ | ⟨hc, rfl, rfl⟩ <;> (
    sl_exec (disch := first | exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]; iexists _; isplitr; swap; iexact H5; rotate_left
    isplitl [H6]; iexists _; isplitr; swap; iexact H6; rotate_left
    isplitl [H7]; iexists _; isplitr; swap; iexact H7; rotate_left
    iexists _; isplitr; swap; iexact H8
    all_goals
      ipureintro
      sl_unfold_run_names
      rw [read_writes_whole _ _ hz2]
      simp only [View.readCov_cons_toLoadRect, View.readAt_eq_ld, View.ld_unit_zero (S := S5000x64) hz2, View.ld_unit_zero (S := S5000x1) hz2, View.ld_unit_zero (S := S1x64) hz2, View.ld_unit_zero (S := S256x64) hz2, View.ld_unit_zero (S := S256x1) hz2]
      first | exact k3_pay5_eq_add .. | exact k3_pay1_pay6_eq_add ..)

theorem body_obligation3 (c : Dev nD) : BodyObligation (dat3 (F := F) V c) (defs₀ (F := F)) Variants.none () Set.univ := fun t => by
  rw [bigSep_W3, bigSep_W3]
  simp only [before3 V c t]
  rw [show (dat3 V c).Φ t.succ = PhiN3 c (accAt3 V c t.val t.isLt) from rfl,
    show (dat3 V c).Φ t.castSucc = PhiS3 V c t.val (Nat.le_of_lt t.isLt) from rfl]
  show _ ⊢ wp _ _ _ (bodyAt3 t) _
  unfold bodyAt3 PhiN3
  obtain ⟨n, hn⟩ := t
  rcases n with _ | n <;> dsimp only [PhiS3] <;> [
    (rw [PhiA3_eq]
     iintro ⟨⟨⟨⟨⟨%ds0, HS0⟩, ⟨%ds1, HS1⟩⟩, HR⟩, Hg⟩, Ho, ⟨%d0, H0⟩, ⟨%d1, H1⟩, ⟨%d2, H2⟩, ⟨%d3, H3⟩, ⟨%d4, H4⟩, ⟨%d5, H5⟩, ⟨%d6, H6⟩⟩
     iapply (sound_kernel3 c Set.univ (.inl ⟨(hcond3 ⟨0, hn⟩).mpr rfl, rfl, rfl⟩) _) $$ H0 H1 H2 H3 H4 [H5] [H6] HS0 HS1);
    (unfold PhiN3
     iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
     iapply (sound_kernel3 c Set.univ (.inr ⟨(hcond3 ⟨n + 1, hn⟩).not.mpr n.succ_ne_zero, rfl, rfl⟩) _) $$ H0 H1 H2 H3 H4 [H5] [H6] HS0 HS1)] <;>
  first
  | (iexists _; iassumption)
  | (iintro ⟨H0, H1, H2, H3, H4, H5, H6, HS0, HS1⟩
     iframe HR Hg
     isplitl [HS0 HS1]
     · isplitl [HS0]; · iexact HS0
       iexact HS1
     isplitl [Ho]; · iexact Ho
     isplitl [H0]; · iexact H0
     isplitl [H1]; · iexact H1
     isplitl [H2]; · iexact H2
     isplitl [H3]; · iexact H3
     isplitl [H4]; · iexact H4
     isplitl [H5]; · iexact H5
     iexact H6)

end Region3

end Cert.Kernel.Rg

end
-- ==== Proof.K.Fam.lean ====
import proofs.«428185_j66005057405150_3_alg».proof.Proof.K.Asm
import proofs.«428185_j66005057405150_3_alg».proof.Proof.K.Rg3

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def o8a (c : Dev nD) : Buf (Elt F) ((c : Thread nD τ).loc main_v49_0) := (dat3 (W7 m) c).arrAt 5 cfg3.N
def o8b (c : Dev nD) : Buf (Elt F) ((c : Thread nD τ).loc main_v49_1) := (dat3 (W7 m) c).arrAt 6 cfg3.N

abbrev outsF : Outs (F := F) := outs m (o8a m) (o8b m)

def pdats : (p : Fin 4) → (c : Dev nD) → Dat τ (Elt F) Unit ℕ (UR sig nD τ) ℕ (Pipeline.pin (pcfgs (F := F)) adm p) c
  | ⟨0, _⟩ => fun c => dat0 (W1 m) c
  | ⟨1, _⟩ => fun c => dat1 (W3 m) c
  | ⟨2, _⟩ => fun c => dat2 (W5 m) c
  | ⟨3, _⟩ => fun c => dat3 (W7 m) c

end Cert.Kernel.Rg

end
-- ==== Proof.K.Segs.lean ====
import proofs.«428185_j66005057405150_3_alg».proof.Proof.K.Fam

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem pdats_plain (p : Fin 4) (c : Dev nD) :
    (∀ t, (pdats m p c).owed t = 0) ∧ (∀ w, (pdats m p c).q w = fullShare) ∧ ∀ t x, x ∈ (pdats m p c).recorded t := by
  match p with
  | 0 | 1 | 2 | 3 => exact ⟨fun _ => rfl, fun _ => rfl, fun _ _ => trivial⟩

/-- One region's record from what differs between regions: the contents it is entered with (`V`) and left with (`X`: the arrays' final contents, `V`'s elsewhere), its body obligation and its invariant's two ends. -/
def regOf (p : Fin 4) (h : Pipeline.LaunchFacts (nD := nD) (τ := τ) cfgs p) (V X : Dev nD → Valuation τ sig (Elt F))
    (hbody : ∀ c, BodyObligation (pdats m p c) (defs₀ (F := F)) Variants.none () Set.univ)
    (hA : ∀ c w, (pdats m p c).A w = V c (Pipeline.arrRef (cfgs p).spec w))
    (hin : ∀ c, Pipeline.ΦA (cfgs p).spec c ⊢ (pdats m p c).Φ 0)
    (hout : ∀ c, (pdats m p c).Φ (Fin.last (cfgs p).N) ⊢ Pipeline.ΦA (cfgs p).spec c)
    (hF : ∀ c w, (pdats m p c).arrAt w (cfgs p).N = X c (Pipeline.arrRef (cfgs p).spec w))
    (hrest : ∀ c b, b ∉ Finset.univ.image (Pipeline.arrRef (cfgs p).spec) → X c b = V c b) :
    Pipeline.RegionSeg (pcfgs (F := F)) adm (pdats m) () defs₀ 𝒱₀ L lv p where
  win := h.win.to₀
  block_pos := h.block_pos
  stage_whole := h.stage_whole
  K := PEmpty
  osem k := k.elim
  ho := Pipeline.OwnSemFacts.none _
  hbody c := (hbody c).loose
  hwaits := Pipeline.hwaits_of_owed_zero _ _ _ _ L lv p fun c => (pdats_plain m p c).1
  pre c := iprop(StableHlo.held (c : Thread nD τ) (Pipeline.ucRefs τ sig) (V c) ∗ R c)
  post c := iprop(StableHlo.held (c : Thread nD τ) (Pipeline.ucRefs τ sig) (X c) ∗ R c)
  X c := iprop(∃ r, prngReg c r)
  Y c := iprop(∃ r, prngReg c r)
  Z c := Pipeline.unscopedRest (cfgs p).spec c fun b => V c b
  hentry c := by
    have hsplit := Pipeline.arrays_of_unscopedBufs (p := p) (pcfgs (F := F)) adm (pdats m) h.win h.arr_whole c
      ((pdats m p c).share_full (pdats_plain m p c).2.1) (fun b => V c b) (hA c)
    rw [Pipeline.unscopedBufs_held] at hsplit
    unfold Pipeline.prefHeld Pipeline.Dat.owesAt Pipeline.owesWithin
    rw [show (Finset.univ : Finset (Fin 0)) = ∅ from rfl, BI.bigSep_empty, (pdats_plain m p c).1]
    iintro ⟨⟨Hub, Hp, %W, HO⟩, -, -⟩
    ihave H := hsplit $$ Hub
    icases H with ⟨Ha, Hrest⟩
    imodintro
    iframe Ha Hp Hrest
    isplitr; · iempintro
    iexists W; iframe HO; ipureintro; exact fun _ _ => Or.inl ((pdats_plain m p c).2.2 _ _)
  hin c := by
    refine .trans ?_ (hin c); unfold Pipeline.ΦA
    iintro ⟨Hp, -, Hr⟩
    iframe
  hout c := by
    rw [Pipeline.ownSems0_none]; refine (hout c).trans ?_; unfold Pipeline.ΦA
    iintro ⟨Hr, Hp⟩
    iframe; iempintro
  hexit c := by
    have hjoin := Pipeline.unscopedBufs_of_arrays (p := p) (pcfgs (F := F)) adm h.win h.arr_whole c (pdats m) ((pdats m p c).share_full (pdats_plain m p c).2.1)
      (fun b => V c b) (fun b => X c b) ((pdats m p c).arrAt · (cfgs p).N) (hF c) (hrest c)
    rw [Pipeline.unscopedBufs_held] at hjoin
    unfold Pipeline.Dat.owesAt Pipeline.owesWithin; rw [(pdats_plain m p c).1]
    iintro ⟨Ha, ⟨%W, -, HO⟩, HY, Hrest⟩
    imodintro
    isplitl [Ha Hrest]
    · iapply hjoin; iframe
    isplitl [HY]; · iexact HY
    iexists W; iexact HO

theorem ne_arr {W gr : Nat} {spec : Fin W → Pipeline.WinSpec sig gr} {b : Ref sig .tc} (hb : b ∉ Finset.univ.image (Pipeline.arrRef spec))
    (w : Fin W) : Proc.devRef (τ := τ) .tc b ≠ Proc.devRef .tc (Pipeline.arrRef spec w) :=
  StableHlo.devRef_ne_of_ne fun h => hb (h ▸ Finset.mem_image_of_mem _ (Finset.mem_univ w))

theorem hF0 (c : Dev nD) (w : Fin cfg0.W) : (dat0 (W1 m) c).arrAt w cfg0.N = V2 m (outsF m) c (Pipeline.arrRef spec0 w) := by
  match w with
  | 0 | 1 | 2 =>
    exact ((dat0 (W1 m) c).arrAt_in _ (by rfl) _).trans ((A_eq0 (W1 m) c _).trans (Function.update_of_ne (StableHlo.devRef_ne_of_ne (by decide)) _ _).symm)
  | 3 => exact Eq.symm ((Function.update_self ..).trans (outs_2 m (o8a m) (o8b m) c))

def reg0 : Pipeline.RegionSeg (pcfgs (F := F)) adm (pdats m) () defs₀ 𝒱₀ L lv 0 :=
  regOf m 0 launch0 (V1 m) (V2 m (outsF m)) (body_obligation0 (W1 m)) (A_eq0 (W1 m)) (fun _ => .rfl) (fun _ => .rfl) (hF0 m)
    fun c b hb => Function.update_of_ne (ne_arr hb 3) _ _

/-- The contents region 1 is left with: as entered, its output array at its final contents. -/
def X4 (c : Dev nD) : Valuation τ sig (Elt F) := Function.update (U3 m c) main_v24 (o4 m c)

theorem hF1 (c : Dev nD) (w : Fin cfg1.W) : (dat1 (W3 m) c).arrAt w cfg1.N = X4 m c (Pipeline.arrRef spec1 w) := by
  match w with
  | 0 | 1 | 2 | 3 | 4 =>
    exact ((dat1 (W3 m) c).arrAt_in _ (by rfl) _).trans ((A_eq1 (W3 m) c _).trans (Function.update_of_ne (StableHlo.devRef_ne_of_ne (by decide)) _ _).symm)
  | 5 => exact Eq.symm (Function.update_self ..)

def reg1 : Pipeline.RegionSeg (pcfgs (F := F)) adm (pdats m) () defs₀ 𝒱₀ L lv 1 :=
  regOf m 1 launch1 (U3 m) (X4 m) (body_obligation1 (W3 m)) (A_eq1 (W3 m)) (fun _ => .rfl) (fun _ => .rfl) (hF1 m)
    fun c b hb => Function.update_of_ne (ne_arr hb 5) _ _

def X6 (c : Dev nD) : Valuation τ sig (Elt F) := Function.update (U5 m c) main_v36 (o6 m c)

theorem hF2 (c : Dev nD) (w : Fin cfg2.W) : (dat2 (W5 m) c).arrAt w cfg2.N = X6 m c (Pipeline.arrRef spec2 w) := by
  match w with
  | 0 | 1 | 2 | 3 | 4 =>
    exact ((dat2 (W5 m) c).arrAt_in _ (by rfl) _).trans ((A_eq2 (W5 m) c _).trans (Function.update_of_ne (StableHlo.devRef_ne_of_ne (by decide)) _ _).symm)
  | 5 => exact Eq.symm (Function.update_self ..)

def reg2 : Pipeline.RegionSeg (pcfgs (F := F)) adm (pdats m) () defs₀ 𝒱₀ L lv 2 :=
  regOf m 2 launch2 (U5 m) (X6 m) (body_obligation2 (W5 m)) (A_eq2 (W5 m)) (fun _ => .rfl) (fun _ => .rfl) (hF2 m)
    fun c b hb => Function.update_of_ne (ne_arr hb 5) _ _

attribute [local irreducible] U7

/-- The contents region 3 is left with: as entered, its two output arrays at their final contents. -/
def X8 (c : Dev nD) : Valuation τ sig (Elt F) :=
  Function.update (Function.update (U7 m c) main_v49_0 (o8a m c)) main_v49_1 (o8b m c)

theorem V8_eq (c : Dev nD) : V8 m (outsF m) c = X8 m c := by
  show Function.update (Function.update (V7 m (outsF m) c) main_v49_0 (outsF m 8 main_v49_0 c)) main_v49_1 (outsF m 8 main_v49_1 c) = _
  rw [V7_eq, show outsF m 8 main_v49_0 c = o8a m c from outs_8a m (o8a m) (o8b m) c,
    show outsF m 8 main_v49_1 c = o8b m c from outs_8b m (o8a m) (o8b m) c]
  rfl

theorem hF3 (c : Dev nD) (w : Fin cfg3.W) : (dat3 (W7 m) c).arrAt w cfg3.N = X8 m c (Pipeline.arrRef spec3 w) := by
  match w with
  | 0 | 1 | 2 | 3 | 4 =>
    exact ((dat3 (W7 m) c).arrAt_in _ (by rfl) _).trans ((A_eq3 (W7 m) c _).trans ((Function.update_of_ne (StableHlo.devRef_ne_of_ne (by decide)) _ _).trans (Function.update_of_ne (StableHlo.devRef_ne_of_ne (by decide)) _ _)).symm)
  | 5 => exact Eq.symm ((Function.update_of_ne (StableHlo.devRef_ne_of_ne (by decide)) _ _).trans (Function.update_self ..))
  | 6 => exact Eq.symm (Function.update_self ..)

def reg3 : Pipeline.RegionSeg (pcfgs (F := F)) adm (pdats m) () defs₀ 𝒱₀ L lv 3 :=
  regOf m 3 launch3 (U7 m) (X8 m) (body_obligation3 (W7 m)) (A_eq3 (W7 m)) (hin3 (W7 m)) (hout3 (W7 m)) (hF3 m)
    fun c b hb => (Function.update_of_ne (ne_arr hb 6) _ _).trans (Function.update_of_ne (ne_arr hb 5) _ _)

end Cert.Kernel.Rg

end
-- ==== Proof.K.Run.lean ====
import proofs.«428185_j66005057405150_3_alg».proof.Proof.K.Segs

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ)

set_option backward.isDefEq.respectTransparency.types false in
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m (EP := emb₁) (ι := ()) (𝒱₀ := 𝒱₀) (L := L) (lv := lv) (hL := fun _ _ => rfl) (ρ := ρ) (outs := outsF m) (pdats := pdats m)
      (O₀ := 0) (G := fun _ => (BI.emp : sProp 𝕄))
      (u₀ := initOf (Pipeline.cells cfgs cellOf_inj) (Pipeline.launchToks cfgs cellOf_inj)) (hu₀ := launch_ghost)
      (E := fun _ c => R c) (hE0 := ride_init ρ) (hE4 := ride_end)
      (R0 := reg0 m) (hpre0 := fun c => .rfl) (hpost0 := fun c => .rfl)
      (R1 := reg1 m) (hpre1 := fun c => V3_eq m (o8a m) (o8b m) c ▸ .rfl) (hpost1 := fun c => V4_eq m (o8a m) (o8b m) c ▸ .rfl)
      (R2 := reg2 m) (hpre2 := fun c => V5_eq m (o8a m) (o8b m) c ▸ .rfl) (hpost2 := fun c => V6_eq m (o8a m) (o8b m) c ▸ .rfl)
      (R3 := reg3 m) (hpre3 := fun c => V7_eq m (o8a m) (o8b m) c ▸ .rfl)
      (hpost3 := fun c => V8_eq m c ▸ .rfl)

end Cert.Kernel.Rg
end
-- ==== Proof.ValueCond.lean ====
import proofs.«428185_j66005057405150_3_alg».proof.Proof.Gen.KernelIdeal.Regions

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

set_option backward.isDefEq.respectTransparency.types false in

theorem value_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c)) :
    θ_run defs (onTc (τ := τ) (main (F := F))) ⟨m, fun _ => 0, ρ⟩ (fun r => ∀ c : Dev nD,
      r.2.mem ((c.tc : Thread nD τ).loc main_v57) = V9 m outs c main_v57
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, hpre0 c, hpost0 c, hpre1 c, hpost1 c, hpre2 c, hpost2 c, hpre3 c, hpost3 c, sep_mono .rfl (hE4 c)⟩)
    (hinit := ?_) (QY := fun c s => s.mem ((c.tc : Thread nD τ).loc main_v57) = V9 m outs c main_v57 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      exact ⟨h (Proc.devRef .tc main_v57) (Finset.mem_filter.mpr ⟨StableHlo.devRef_mem_tcRefs main_v57, by decide⟩),
        (h (Proc.devRef .tc main_arg0) (Finset.mem_filter.mpr ⟨StableHlo.devRef_mem_tcRefs main_arg0, by decide⟩)).trans (V9_main_arg0 m outs c),
        (h (Proc.devRef .tc main_arg1) (Finset.mem_filter.mpr ⟨StableHlo.devRef_mem_tcRefs main_arg1, by decide⟩)).trans (V9_main_arg1 m outs c),
        (h (Proc.devRef .tc main_arg2) (Finset.mem_filter.mpr ⟨StableHlo.devRef_mem_tcRefs main_arg2, by decide⟩)).trans (V9_main_arg2 m outs c),
        (h (Proc.devRef .tc main_arg3) (Finset.mem_filter.mpr ⟨StableHlo.devRef_mem_tcRefs main_arg3, by decide⟩)).trans (V9_main_arg3 m outs c),
        (h (Proc.devRef .tc main_arg4) (Finset.mem_filter.mpr ⟨StableHlo.devRef_mem_tcRefs main_arg4, by decide⟩)).trans (V9_main_arg4 m outs c),
        (h (Proc.devRef .tc main_arg5) (Finset.mem_filter.mpr ⟨StableHlo.devRef_mem_tcRefs main_arg5, by decide⟩)).trans (V9_main_arg5 m outs c),
        (h (Proc.devRef .tc main_arg6) (Finset.mem_filter.mpr ⟨StableHlo.devRef_mem_tcRefs main_arg6, by decide⟩)).trans (V9_main_arg6 m outs c),
        (h (Proc.devRef .tc main_arg7) (Finset.mem_filter.mpr ⟨StableHlo.devRef_mem_tcRefs main_arg7, by decide⟩)).trans (V9_main_arg7 m outs c),
        (h (Proc.devRef .tc main_arg8) (Finset.mem_filter.mpr ⟨StableHlo.devRef_mem_tcRefs main_arg8, by decide⟩)).trans (V9_main_arg8 m outs c),
        (h (Proc.devRef .tc main_arg9) (Finset.mem_filter.mpr ⟨StableHlo.devRef_mem_tcRefs main_arg9, by decide⟩)).trans (V9_main_arg9 m outs c),
        (h (Proc.devRef .tc main_arg10) (Finset.mem_filter.mpr ⟨StableHlo.devRef_mem_tcRefs main_arg10, by decide⟩)).trans (V9_main_arg10 m outs c)⟩
    · iexact HSI

end Cert.KernelIdeal.Gen

end
-- ==== Proof.Rg0.lean ====
import proofs.«428185_j66005057405150_3_alg».proof.Proof.Gen.KernelIdeal
import proofs.«428185_j66005057405150_3_alg».proof.Proof.Gen.KernelIdeal.Skeleton
import proofs.«428185_j66005057405150_3_alg».proof.Proof.Gen.KernelIdeal.Launch
import proofs.«428185_j66005057405150_3_alg».proof.Proof.Gen.KernelIdeal.Points
import proofs.«428185_j66005057405150_3_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Rg

open Cert.KernelIdeal Cert.KernelIdeal.Gen Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_3 (x0 : Vec F S5000x64 .f32) (x1 : Vec F S64x64 .f32) (x2 : Vec F S5000x1 .f32) : Vec F S5000x64 .f32 := k0_pay1 x0 x1 x2

theorem out0_3_eq (x0 : Vec F S5000x64 .f32) (x1 : Vec F S64x64 .f32) (x2 : Vec F S5000x1 .f32) :
    out0_3 x0 x1 x2 = k0_pay1 x0 x1 x2 := rfl

-- Run on its operands' contents, the body leaves  d ⊙ (bf16 X · bf16 W)  in its last operand and the others unchanged.
set_option maxHeartbeats 1000000 in
theorem sound_kernel0 (c : Dev nD) (E : Set ℕ) (i : grid0.Coords)
    (arg1 : Memref sig .tc .vmem S5000x64 .f32) (harg1 : arg1.IsWhole) (arg2 : Memref sig .tc .vmem S64x64 .f32) (harg2 : arg2.IsWhole)
    (arg3 : Memref sig .tc .vmem S5000x1 .f32) (harg3 : arg3.IsWhole) (arg4 : Memref sig .tc .vmem S5000x64 .f32) (harg4 : arg4.IsWhole)
    (x0 : Vec F S5000x64 .f32) (x1 : Vec F S64x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_dinv_kernel i arg1 harg1 arg2 harg2 arg3 harg3 arg4 harg4) K := by
  simp only [cc0__matmul_dinv_kernel_eq_skeleton]; unfold cc0__matmul_dinv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  iexists _; isplitr; swap; · iexact H3
  ipureintro
  rw [read_writes_whole _ _ hz2]
  simp only [View.readAt_eq_ld, View.ld_unit_zero (S := S5000x64) hz2, View.ld_unit_zero (S := S64x64) hz2, View.ld_unit_zero (S := S5000x1) hz2]
  rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_0 (c : Dev nD) (t : Fin cfg0.N) : (dat0 V c).after 0 t = iblk0 V c 0 t := rfl
theorem after0_1 (c : Dev nD) (t : Fin cfg0.N) : (dat0 V c).after 1 t = iblk0 V c 1 t := rfl
theorem after0_2 (c : Dev nD) (t : Fin cfg0.N) : (dat0 V c).after 2 t = iblk0 V c 2 t := rfl
theorem after0_3 (c : Dev nD) (t : Fin cfg0.N) :
    (dat0 V c).after 3 t = out0_3 (iblk0 V c 0 t) (iblk0 V c 1 t) (iblk0 V c 2 t) := rfl

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  simp only [before0_0, before0_1, before0_2]
  rw [show (dat0 V c).Φ t.succ = (dat0 V c).Φ t.castSucc from rfl,
    show (dat0 V c).owesAt () t.succ = (dat0 V c).owesAt () t.castSucc from rfl, after0_0, after0_1, after0_2, after0_3]
  show _ ⊢ wp _ _ _ (bodyAt0 t) _
  unfold bodyAt0
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  iframe

end Cert.KernelIdeal.Rg

end
-- ==== Proof.Rg1.lean ====
import proofs.«428185_j66005057405150_3_alg».proof.Proof.Gen.KernelIdeal
import proofs.«428185_j66005057405150_3_alg».proof.Proof.Gen.KernelIdeal.Skeleton
import proofs.«428185_j66005057405150_3_alg».proof.Proof.Gen.KernelIdeal.Launch
import proofs.«428185_j66005057405150_3_alg».proof.Proof.Gen.KernelIdeal.Points
import proofs.«428185_j66005057405150_3_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Rg

open Cert.KernelIdeal Cert.KernelIdeal.Gen Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_5 (x0 x1 : Vec F S5000x64 .f32) (x2 : Vec F S5000x1 .f32) (x3 : Vec F S1x64 .f32) (x4 : Vec F S64x64 .f32) : Vec F S5000x64 .f32 :=
  k1_pay1 x2 x0 x1 x3 x4 x2

theorem out1_5_eq (x0 x1 : Vec F S5000x64 .f32) (x2 : Vec F S5000x1 .f32) (x3 : Vec F S1x64 .f32) (x4 : Vec F S64x64 .f32) :
    out1_5 x0 x1 x2 x3 x4 = k1_pay1 x2 x0 x1 x3 x4 x2 := rfl

-- Run on its operands' contents, the body leaves  d ⊙ (bf16 (relu (d ⊙ (a + h) + b)) · bf16 W)  in its last operand and the others unchanged.
set_option maxHeartbeats 1000000 in
theorem sound_kernel1 (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S5000x1 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S5000x64 .f32) (harg6 : arg6.IsWhole)
    (x0 x1 : Vec F S5000x64 .f32) (x2 : Vec F S5000x1 .f32) (x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__fused_finalize_matmul_kernel i arg1 harg1 arg2 harg2 arg3 harg3 arg4 harg4 arg5 harg5 arg6 harg6) K := by
  simp only [cc1__fused_finalize_matmul_kernel_eq_skeleton]; unfold cc1__fused_finalize_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  iexists _; isplitr; swap; · iexact H5
  ipureintro
  rw [read_writes_whole _ _ hz2]
  simp only [View.readAt_eq_ld, View.ld_unit_zero (S := S5000x64) hz2, View.ld_unit_zero (S := S5000x1) hz2, View.ld_unit_zero (S := S1x64) hz2, View.ld_unit_zero (S := S64x64) hz2]
  rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := rfl

theorem after1_0 (c : Dev nD) (t : Fin cfg1.N) : (dat1 V c).after 0 t = iblk1 V c 0 t := rfl
theorem after1_1 (c : Dev nD) (t : Fin cfg1.N) : (dat1 V c).after 1 t = iblk1 V c 1 t := rfl
theorem after1_2 (c : Dev nD) (t : Fin cfg1.N) : (dat1 V c).after 2 t = iblk1 V c 2 t := rfl
theorem after1_3 (c : Dev nD) (t : Fin cfg1.N) : (dat1 V c).after 3 t = iblk1 V c 3 t := rfl
theorem after1_4 (c : Dev nD) (t : Fin cfg1.N) : (dat1 V c).after 4 t = iblk1 V c 4 t := rfl
theorem after1_5 (c : Dev nD) (t : Fin cfg1.N) :
    (dat1 V c).after 5 t = out1_5 (iblk1 V c 0 t) (iblk1 V c 1 t) (iblk1 V c 2 t) (iblk1 V c 3 t) (iblk1 V c 4 t) := rfl

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d

theorem body_obligation1 (c : Dev nD) : BodyObligation (dat1 (F := F) V c) (defs₀ (F := F)) Variants.none () Set.univ := fun t => by
  rw [bigSep_W1, bigSep_W1]
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  show _ ⊢ wp _ _ _ (bodyAt1 t) _
  unfold bodyAt1
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  iframe

end Cert.KernelIdeal.Rg

end
-- ==== Proof.Rg2.lean ====
import proofs.«428185_j66005057405150_3_alg».proof.Proof.Gen.KernelIdeal
import proofs.«428185_j66005057405150_3_alg».proof.Proof.Gen.KernelIdeal.Skeleton
import proofs.«428185_j66005057405150_3_alg».proof.Proof.Gen.KernelIdeal.Launch
import proofs.«428185_j66005057405150_3_alg».proof.Proof.Gen.KernelIdeal.Points
import proofs.«428185_j66005057405150_3_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Rg

open Cert.KernelIdeal Cert.KernelIdeal.Gen Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_5 (x0 x1 : Vec F S5000x64 .f32) (x2 : Vec F S5000x1 .f32) (x3 : Vec F S1x64 .f32) (x4 : Vec F S64x64 .f32) : Vec F S5000x64 .f32 :=
  k2_pay1 x2 x0 x1 x3 x4 x2

theorem out2_5_eq (x0 x1 : Vec F S5000x64 .f32) (x2 : Vec F S5000x1 .f32) (x3 : Vec F S1x64 .f32) (x4 : Vec F S64x64 .f32) :
    out2_5 x0 x1 x2 x3 x4 = k2_pay1 x2 x0 x1 x3 x4 x2 := rfl

-- Run on its operands' contents, the body leaves  d ⊙ (bf16 (relu (d ⊙ (a + h) + b)) · bf16 W)  in its last operand and the others unchanged.
set_option maxHeartbeats 1000000 in
theorem sound_kernel2 (c : Dev nD) (E : Set ℕ) (i : grid2.Coords)
    (arg1 : Memref sig .tc .vmem S5000x64 .f32) (harg1 : arg1.IsWhole) (arg2 : Memref sig .tc .vmem S5000x64 .f32) (harg2 : arg2.IsWhole)
    (arg3 : Memref sig .tc .vmem S5000x1 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S5000x64 .f32) (harg6 : arg6.IsWhole)
    (x0 x1 : Vec F S5000x64 .f32) (x2 : Vec F S5000x1 .f32) (x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2__fused_finalize_matmul_kernel i arg1 harg1 arg2 harg2 arg3 harg3 arg4 harg4 arg5 harg5 arg6 harg6) K := by
  simp only [cc2__fused_finalize_matmul_kernel_eq_skeleton]; unfold cc2__fused_finalize_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  iexists _; isplitr; swap; · iexact H5
  ipureintro
  rw [read_writes_whole _ _ hz2]
  simp only [View.readAt_eq_ld, View.ld_unit_zero (S := S5000x64) hz2, View.ld_unit_zero (S := S5000x1) hz2, View.ld_unit_zero (S := S1x64) hz2, View.ld_unit_zero (S := S64x64) hz2]
  rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := rfl

theorem after2_0 (c : Dev nD) (t : Fin cfg2.N) : (dat2 V c).after 0 t = iblk2 V c 0 t := rfl
theorem after2_1 (c : Dev nD) (t : Fin cfg2.N) : (dat2 V c).after 1 t = iblk2 V c 1 t := rfl
theorem after2_2 (c : Dev nD) (t : Fin cfg2.N) : (dat2 V c).after 2 t = iblk2 V c 2 t := rfl
theorem after2_3 (c : Dev nD) (t : Fin cfg2.N) : (dat2 V c).after 3 t = iblk2 V c 3 t := rfl
theorem after2_4 (c : Dev nD) (t : Fin cfg2.N) : (dat2 V c).after 4 t = iblk2 V c 4 t := rfl
theorem after2_5 (c : Dev nD) (t : Fin cfg2.N) :
    (dat2 V c).after 5 t = out2_5 (iblk2 V c 0 t) (iblk2 V c 1 t) (iblk2 V c 2 t) (iblk2 V c 3 t) (iblk2 V c 4 t) := rfl

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2]
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  show _ ⊢ wp _ _ _ (bodyAt2 t) _
  unfold bodyAt2
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  iframe

end Cert.KernelIdeal.Rg

end
-- ==== Proof.Asm.lean ====
import proofs.«428185_j66005057405150_3_alg».proof.Proof.Gen.KernelIdeal.Regions
import proofs.«428185_j66005057405150_3_alg».proof.Proof.Rg0
import proofs.«428185_j66005057405150_3_alg».proof.Proof.Rg1
import proofs.«428185_j66005057405150_3_alg».proof.Proof.Rg2

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev U1 (c : Dev nD) : Valuation τ sig (Elt F) := V1 m c

abbrev W1 : (c : Dev nD) → (b : Ref sig .tc) → Buf (Elt F) ((c : Thread nD τ).loc b) := fun c b => U1 m c b

def o2 (c : Dev nD) : Buf (Elt F) ((c : Thread nD τ).loc main_v12) := (dat0 (W1 m) c).arrAt 3 cfg0.N

def U3 (c : Dev nD) : Valuation τ sig (Elt F) := StableHlo.after hostOps1 (Function.update (U1 m c) main_v12 (o2 m c))
abbrev W3 : (c : Dev nD) → (b : Ref sig .tc) → Buf (Elt F) ((c : Thread nD τ).loc b) := fun c b => U3 m c b

def o4 (c : Dev nD) : Buf (Elt F) ((c : Thread nD τ).loc main_v24) := (dat1 (W3 m) c).arrAt 5 cfg1.N

def U5 (c : Dev nD) : Valuation τ sig (Elt F) := StableHlo.after hostOps2 (Function.update (U3 m c) main_v24 (o4 m c))
abbrev W5 : (c : Dev nD) → (b : Ref sig .tc) → Buf (Elt F) ((c : Thread nD τ).loc b) := fun c b => U5 m c b

def o6 (c : Dev nD) : Buf (Elt F) ((c : Thread nD τ).loc main_v36) := (dat2 (W5 m) c).arrAt 5 cfg2.N

def U7 (c : Dev nD) : Valuation τ sig (Elt F) := StableHlo.after hostOps3 (Function.update (U5 m c) main_v36 (o6 m c))
abbrev W7 : (c : Dev nD) → (b : Ref sig .tc) → Buf (Elt F) ((c : Thread nD τ).loc b) := fun c b => U7 m c b

section Outs

variable (o8a : (c : Dev nD) → Buf (Elt F) ((c : Thread nD τ).loc main_v49_0))
  (o8b : (c : Dev nD) → Buf (Elt F) ((c : Thread nD τ).loc main_v49_1))

def outs : Outs (F := F) := fun J r c =>
  if h : J = 2 ∧ r = main_v12 then h.2 ▸ o2 m c
  else if h : J = 4 ∧ r = main_v24 then h.2 ▸ o4 m c
  else if h : J = 6 ∧ r = main_v36 then h.2 ▸ o6 m c
  else if h : J = 8 ∧ r = main_v49_0 then h.2 ▸ o8a c
  else if h : J = 8 ∧ r = main_v49_1 then h.2 ▸ o8b c
  else V1 m c r

theorem outs_2 (c : Dev nD) : outs m o8a o8b 2 main_v12 c = o2 m c := by
  unfold outs; rw [dif_pos ⟨rfl, rfl⟩]
theorem outs_4 (c : Dev nD) : outs m o8a o8b 4 main_v24 c = o4 m c := by
  unfold outs; rw [dif_neg (by decide), dif_pos ⟨rfl, rfl⟩]
theorem outs_6 (c : Dev nD) : outs m o8a o8b 6 main_v36 c = o6 m c := by
  unfold outs; rw [dif_neg (by decide), dif_neg (by decide), dif_pos ⟨rfl, rfl⟩]
theorem outs_8a (c : Dev nD) : outs m o8a o8b 8 main_v49_0 c = o8a c := by
  unfold outs; rw [dif_neg (by decide), dif_neg (by decide), dif_neg (by decide), dif_pos ⟨rfl, rfl⟩]
theorem outs_8b (c : Dev nD) : outs m o8a o8b 8 main_v49_1 c = o8b c := by
  unfold outs; rw [dif_neg (by decide), dif_neg (by decide), dif_neg (by decide), dif_neg (by decide), dif_pos ⟨rfl, rfl⟩]

theorem V2_eq (c : Dev nD) : V2 m (outs m o8a o8b) c = Function.update (U1 m c) main_v12 (o2 m c) := by
  show Function.update (V1 m c) main_v12 (outs m o8a o8b 2 main_v12 c) = _
  rw [outs_2]
theorem V3_eq (c : Dev nD) : V3 m (outs m o8a o8b) c = U3 m c := by
  show StableHlo.after hostOps1 (V2 m (outs m o8a o8b) c) = _
  rw [V2_eq]; rfl
theorem V4_eq (c : Dev nD) : V4 m (outs m o8a o8b) c = Function.update (U3 m c) main_v24 (o4 m c) := by
  show Function.update (V3 m (outs m o8a o8b) c) main_v24 (outs m o8a o8b 4 main_v24 c) = _
  rw [V3_eq, outs_4]
theorem V5_eq (c : Dev nD) : V5 m (outs m o8a o8b) c = U5 m c := by
  show StableHlo.after hostOps2 (V4 m (outs m o8a o8b) c) = _
  rw [V4_eq]; rfl
theorem V6_eq (c : Dev nD) : V6 m (outs m o8a o8b) c = Function.update (U5 m c) main_v36 (o6 m c) := by
  show Function.update (V5 m (outs m o8a o8b) c) main_v36 (outs m o8a o8b 6 main_v36 c) = _
  rw [V5_eq, outs_6]
theorem V7_eq (c : Dev nD) : V7 m (outs m o8a o8b) c = U7 m c := by
  show StableHlo.after hostOps3 (V6 m (outs m o8a o8b) c) = _
  rw [V6_eq]; rfl

end Outs

theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem ride_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem ride_end (c : Dev nD) :
    R (F := F) c ⊢ (iprop(∃ W, owes (c : Thread nD τ) (0 : CellTallies nD τ sig Unit) W) : sProp 𝕄) := by
  iintro ⟨-, HO⟩; iexact HO

end Cert.KernelIdeal.Rg

end
-- ==== Proof.Rg3.lean ====
import proofs.«428185_j66005057405150_3_alg».proof.Proof.Gen.KernelIdeal
import proofs.«428185_j66005057405150_3_alg».proof.Proof.Gen.KernelIdeal.Skeleton
import proofs.«428185_j66005057405150_3_alg».proof.Proof.Gen.KernelIdeal.Launch
import proofs.«428185_j66005057405150_3_alg».proof.Proof.Gen.KernelIdeal.Points
import proofs.«428185_j66005057405150_3_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3 (i : grid3.Coords) : Prop := (Scalar.cmpi .ne (Scalar.extui (Scalar.cmpi .eq (BitVec.ofNat 32 (i 0).val) 0#32)) 0#32) = 1#1
theorem hcond3 : ∀ t : Fin cfg3.N, cond3 (grid3.coords t) ↔ t.val = 0 :=
  (by decide +kernel : ∀ t : Fin grid3.N, cond3 (grid3.coords t) ↔ t.val = 0)

def stepS (x0 x1 : Vec F S5000x64 .f32) (x2 : Vec F S5000x1 .f32) (x3 : Vec F S1x64 .f32) (x4 : Vec F S5000x1 .i32) : Vec F S256x64 .f32 :=
  have v4 : FVec F S5000x1 .f32 := shapeCast S5000x1 x2 shapeCasts_S5000x1_S5000x1
  have v6 : FVec F S5000x64 .f32 := shapeCast S5000x64 x0 shapeCasts_S5000x64_S5000x64
  have v8 : FVec F S5000x64 .f32 := shapeCast S5000x64 x1 shapeCasts_S5000x64_S5000x64
  have v9 : FVec F S5000x64 .f32 := addf v6 v8
  have v10 : FVec F S5000x64 .f32 := broadcastTo S5000x64 v4 broadcasts_S5000x1_S5000x64
  have v11 : FVec F S5000x64 .f32 := mulf v10 v9
  have v13 : FVec F S1x64 .f32 := shapeCast S1x64 x3 shapeCasts_S1x64_S1x64
  have v14 : FVec F S5000x64 .f32 := broadcastTo S5000x64 v13 broadcasts_S1x64_S5000x64
  have v15 : FVec F S5000x64 .f32 := addf v11 v14
  have v25 : FVec F S5000x64 .bf16 := truncf .bf16 v15 bitsLt_bf16_f32
  have cst : FVec F S256x64 .f32 := constant S256x64 .f32 0x00000000#32
  matmul dot_S5000x256_S5000x64_S256x64_0_0_1_1_n_n none (k3_pay4 x4) v25 cst

def stepC (x4 : Vec F S5000x1 .i32) : Vec F S256x1 .f32 :=
  have cst_14 : F .bf16 := Scalar.ofBits .bf16 0x3F80#16
  have v32 : FVec F S5000x1 .bf16 := broadcast S5000x1 cst_14
  have cst_17 : FVec F S256x1 .f32 := constant S256x1 .f32 0x00000000#32
  matmul dot_S5000x256_S5000x1_S256x1_0_0_1_1_n_n none (k3_pay4 x4) v32 cst_17

theorem k3_pay5_eq_add (x0 x1 : Vec F S5000x64 .f32) (x2 : Vec F S5000x1 .f32) (x3 : Vec F S1x64 .f32) (x4 : Vec F S5000x1 .i32)
    (a : Vec F S256x64 .f32) : k3_pay5 x2 x0 x1 x3 x4 a = addf a (stepS x0 x1 x2 x3 x4) :=
  shapeCast_self _ _

theorem k3_pay1_pay6_eq_add (x4 : Vec F S5000x1 .i32) (a : Vec F S256x1 .f32) : k3_pay1 (k3_pay6 x4 a) = addf a (stepC x4) :=
  shapeCast_self _ _

def accAt3 (c : Dev nD) : (n : ℕ) → n < cfg3.N → Vec F S256x64 .f32 × Vec F S256x1 .f32
  | 0, hn => (addf (k3_pay2 (F := F)) (stepS (iblk3 V c 0 ⟨0, hn⟩) (iblk3 V c 1 ⟨0, hn⟩) (iblk3 V c 2 ⟨0, hn⟩) (iblk3 V c 3 ⟨0, hn⟩) (iblk3 V c 4 ⟨0, hn⟩)),
      addf (k3_pay3 (F := F)) (stepC (iblk3 V c 4 ⟨0, hn⟩)))
  | n + 1, hn => (addf (accAt3 c n (Nat.lt_of_succ_lt hn)).1 (stepS (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩)),
      addf (accAt3 c n (Nat.lt_of_succ_lt hn)).2 (stepC (iblk3 V c 4 ⟨n + 1, hn⟩)))

theorem accAt3_zero (c : Dev nD) (hn : 0 < cfg3.N) :
    accAt3 V c 0 hn = (addf (k3_pay2 (F := F)) (stepS (iblk3 V c 0 ⟨0, hn⟩) (iblk3 V c 1 ⟨0, hn⟩) (iblk3 V c 2 ⟨0, hn⟩) (iblk3 V c 3 ⟨0, hn⟩) (iblk3 V c 4 ⟨0, hn⟩)),
      addf (k3_pay3 (F := F)) (stepC (iblk3 V c 4 ⟨0, hn⟩))) := rfl

theorem accAt3_succ (c : Dev nD) (n : ℕ) (hn : n + 1 < cfg3.N) :
    accAt3 V c (n + 1) hn = (addf (accAt3 V c n (Nat.lt_of_succ_lt hn)).1 (stepS (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩)),
      addf (accAt3 V c n (Nat.lt_of_succ_lt hn)).2 (stepC (iblk3 V c 4 ⟨n + 1, hn⟩))) := rfl

abbrev scM3_0 : Memref sig .tc .vmem S256x64 .f32 := Memref.whole cc3_scratch0
abbrev scM3_1 : Memref sig .tc .vmem S256x1 .f32 := Memref.whole cc3_scratch1

theorem PhiA3_eq (c : Dev nD) :
    (Pipeline.ΦA spec3 c : sProp 𝕄)
      = iprop(iprop(iprop((∃ d, owns c.tc scM3_0 fullShare d) ∗ (∃ d, owns c.tc scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

def PhiN3 (c : Dev nD) (a : Vec F S256x64 .f32 × Vec F S256x1 .f32) : sProp 𝕄 :=
  iprop(iprop(iprop(owns c.tc scM3_0 fullShare a.1 ∗ owns c.tc scM3_1 fullShare a.2)
      ∗ Pipeline.scopedRestBut (Ix := Unit) (Name := ℕ) (U := UR sig nD τ) (Lvl := ℕ) (Val := Elt F) spec3 c [cc3_scratch0, cc3_scratch1]) ∗ (∃ r, prngReg c r))

-- Named contents may be forgotten.
theorem PhiN3_out (c : Dev nD) (a : Vec F S256x64 .f32 × Vec F S256x1 .f32) : PhiN3 c a ⊢ Pipeline.ΦA spec3 c := by
  rw [PhiA3_eq]; unfold PhiN3
  iintro ⟨⟨⟨HS0, HS1⟩, HR⟩, Hg⟩
  iframe HR Hg
  isplitl [HS0] <;> iexists _ <;> iassumption

def PhiS3 (c : Dev nD) : (n : ℕ) → n ≤ cfg3.N → sProp 𝕄
  | 0, _ => Pipeline.ΦA spec3 c
  | n + 1, hn => PhiN3 c (accAt3 V c n hn)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (accAt3 V c t.val t.isLt).1
    | ⟨6, _⟩ => (accAt3 V c t.val t.isLt).2
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_5 (c : Dev nD) (t : Fin cfg3.N) : (dat3 V c).after 5 t = (accAt3 V c t.val t.isLt).1 := by dsimp only [dat3]
theorem after3_6 (c : Dev nD) (t : Fin cfg3.N) : (dat3 V c).after 6 t = (accAt3 V c t.val t.isLt).2 := by dsimp only [dat3]

theorem before3 (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t)
      ∧ (∀ d, (dat3 V c).before 3 t d = iblk3 V c 3 t) ∧ (∀ d, (dat3 V c).before 4 t d = iblk3 V c 4 t) := by
  refine ⟨?_, ?_, ?_, ?_, ?_⟩ <;> exact (dat3 V c).before_in_eq_fetched _ rfl (fun _ => rfl) (fun _ _ _ => rfl) (fun _ => rfl) t

theorem hin3 (c : Dev nD) : Pipeline.ΦA spec3 c ⊢ (dat3 V c).Φ 0 := by rfl

theorem hout3 (c : Dev nD) : (dat3 V c).Φ (Fin.last cfg3.N) ⊢ Pipeline.ΦA spec3 c :=
  PhiN3_out c (accAt3 V c 19 _)

-- a0 and a1 are what the point's contribution is added to: zero at the first point, the running totals afterwards.
theorem sound_kernel3 (c : Dev nD) (E : Set ℕ) {i : grid3.Coords} {arg1 : Memref sig .tc .vmem S5000x64 .f32} {harg1 : arg1.IsWhole} {arg2 : Memref sig .tc .vmem S5000x64 .f32} {harg2 : arg2.IsWhole} {arg3 : Memref sig .tc .vmem S5000x1 .f32} {harg3 : arg3.IsWhole} {arg4 : Memref sig .tc .vmem S1x64 .f32} {harg4 : arg4.IsWhole} {arg5 : Memref sig .tc .vmem S5000x1 .i32} {harg5 : arg5.IsWhole} {arg6 : Memref sig .tc .vmem S256x64 .f32} {harg6 : arg6.IsWhole} {arg7 : Memref sig .tc .vmem S256x1 .f32} {harg7 : arg7.IsWhole}
    {x0 x1 : Vec F S5000x64 .f32} {x2 : Vec F S5000x1 .f32} {x3 : Vec F S1x64 .f32} {x4 : Vec F S5000x1 .i32}
    {xs0 a0 : Vec F S256x64 .f32} {xs1 a1 : Vec F S256x1 .f32}
    (h : cond3 i ∧ a0 = k3_pay2 ∧ a1 = k3_pay3 ∨ ¬cond3 i ∧ a0 = xs0 ∧ a1 = xs1) (K : PUnit → sProp 𝕄) :
    ⊢ iprop(owns c.tc arg1 fullShare x0 -∗ owns c.tc arg2 fullShare x1 -∗ owns c.tc arg3 fullShare x2
        -∗ owns c.tc arg4 fullShare x3 -∗ owns c.tc arg5 fullShare x4
        -∗ (∃ d, owns c.tc arg6 fullShare d) -∗ (∃ d, owns c.tc arg7 fullShare d)
        -∗ owns c.tc scM3_0 fullShare xs0 -∗ owns c.tc scM3_1 fullShare xs1
        -∗ (iprop(owns c.tc arg1 fullShare x0 ∗ owns c.tc arg2 fullShare x1 ∗ owns c.tc arg3 fullShare x2
        ∗ owns c.tc arg4 fullShare x3 ∗ owns c.tc arg5 fullShare x4
            ∗ owns c.tc arg6 fullShare (addf a0 (stepS x0 x1 x2 x3 x4)) ∗ owns c.tc arg7 fullShare (addf a1 (stepC x4))
            ∗ owns c.tc scM3_0 fullShare (addf a0 (stepS x0 x1 x2 x3 x4)) ∗ owns c.tc scM3_1 fullShare (addf a1 (stepC x4))) -∗ K ⟨⟩)
        -∗ wp frame (wpE (defs₀ (F := F)) Variants.none c none) E (cc3__pool_fused_kernel i arg1 harg1 arg2 harg2 arg3 harg3 arg4 harg4 arg5 harg5 arg6 harg6 arg7 harg7 scM3_0 (Memref.isWhole_whole _) scM3_1 (Memref.isWhole_whole _)) K) := by
  simp only [cc3__pool_fused_kernel_eq_skeleton]; unfold cc3__pool_fused_kernel_skel
  simp only [k3_part1_eq_skeleton]
  unfold owns
  iintro ⟨%f0, %hf0, H0⟩ ⟨%f1, %hf1, H1⟩ ⟨%f2, %hf2, H2⟩ ⟨%f3, %hf3, H3⟩ ⟨%f4, %hf4, H4⟩ ⟨%d5, %f5, -, H5⟩ ⟨%d6, %f6, -, H6⟩ ⟨%f7, %hf7, H7⟩ ⟨%f8, %hf8, H8⟩ Hk
  subst hf0 hf1 hf2 hf3 hf4 hf7 hf8
  rcases h with ⟨hc, rfl, rfl⟩ | ⟨hc, rfl, rfl⟩ <;> (
    sl_exec (disch := first | exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]; iexists _; isplitr; swap; iexact H5; rotate_left
    isplitl [H6]; iexists _; isplitr; swap; iexact H6; rotate_left
    isplitl [H7]; iexists _; isplitr; swap; iexact H7; rotate_left
    iexists _; isplitr; swap; iexact H8
    all_goals
      ipureintro
      sl_unfold_run_names
      rw [read_writes_whole _ _ hz2]
      simp only [View.readCov_cons_toLoadRect, View.readAt_eq_ld, View.ld_unit_zero (S := S5000x64) hz2, View.ld_unit_zero (S := S5000x1) hz2, View.ld_unit_zero (S := S1x64) hz2, View.ld_unit_zero (S := S256x64) hz2, View.ld_unit_zero (S := S256x1) hz2]
      first | exact k3_pay5_eq_add .. | exact k3_pay1_pay6_eq_add ..)

theorem body_obligation3 (c : Dev nD) : BodyObligation (dat3 (F := F) V c) (defs₀ (F := F)) Variants.none () Set.univ := fun t => by
  rw [bigSep_W3, bigSep_W3]
  simp only [before3 V c t]
  rw [show (dat3 V c).Φ t.succ = PhiN3 c (accAt3 V c t.val t.isLt) from rfl,
    show (dat3 V c).Φ t.castSucc = PhiS3 V c t.val (Nat.le_of_lt t.isLt) from rfl]
  show _ ⊢ wp _ _ _ (bodyAt3 t) _
  unfold bodyAt3 PhiN3
  obtain ⟨n, hn⟩ := t
  rcases n with _ | n <;> dsimp only [PhiS3] <;> [
    (rw [PhiA3_eq]
     iintro ⟨⟨⟨⟨⟨%ds0, HS0⟩, ⟨%ds1, HS1⟩⟩, HR⟩, Hg⟩, Ho, ⟨%d0, H0⟩, ⟨%d1, H1⟩, ⟨%d2, H2⟩, ⟨%d3, H3⟩, ⟨%d4, H4⟩, ⟨%d5, H5⟩, ⟨%d6, H6⟩⟩
     iapply (sound_kernel3 c Set.univ (.inl ⟨(hcond3 ⟨0, hn⟩).mpr rfl, rfl, rfl⟩) _) $$ H0 H1 H2 H3 H4 [H5] [H6] HS0 HS1);
    (unfold PhiN3
     iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
     iapply (sound_kernel3 c Set.univ (.inr ⟨(hcond3 ⟨n + 1, hn⟩).not.mpr n.succ_ne_zero, rfl, rfl⟩) _) $$ H0 H1 H2 H3 H4 [H5] [H6] HS0 HS1)] <;>
  first
  | (iexists _; iassumption)
  | (iintro ⟨H0, H1, H2, H3, H4, H5, H6, HS0, HS1⟩
     iframe HR Hg
     isplitl [HS0 HS1]
     · isplitl [HS0]; · iexact HS0
       iexact HS1
     isplitl [Ho]; · iexact Ho
     isplitl [H0]; · iexact H0
     isplitl [H1]; · iexact H1
     isplitl [H2]; · iexact H2
     isplitl [H3]; · iexact H3
     isplitl [H4]; · iexact H4
     isplitl [H5]; · iexact H5
     iexact H6)

end Region3

end Cert.KernelIdeal.Rg

end
-- ==== Proof.Fam.lean ====
import proofs.«428185_j66005057405150_3_alg».proof.Proof.Asm
import proofs.«428185_j66005057405150_3_alg».proof.Proof.Rg3

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def o8a (c : Dev nD) : Buf (Elt F) ((c : Thread nD τ).loc main_v49_0) := (dat3 (W7 m) c).arrAt 5 cfg3.N
def o8b (c : Dev nD) : Buf (Elt F) ((c : Thread nD τ).loc main_v49_1) := (dat3 (W7 m) c).arrAt 6 cfg3.N

abbrev outsF : Outs (F := F) := outs m (o8a m) (o8b m)

def pdats : (p : Fin 4) → (c : Dev nD) → Dat τ (Elt F) Unit ℕ (UR sig nD τ) ℕ (Pipeline.pin (pcfgs (F := F)) adm p) c
  | ⟨0, _⟩ => fun c => dat0 (W1 m) c
  | ⟨1, _⟩ => fun c => dat1 (W3 m) c
  | ⟨2, _⟩ => fun c => dat2 (W5 m) c
  | ⟨3, _⟩ => fun c => dat3 (W7 m) c

end Cert.KernelIdeal.Rg

end
-- ==== Proof.Segs.lean ====
import proofs.«428185_j66005057405150_3_alg».proof.Proof.Fam

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem pdats_plain (p : Fin 4) (c : Dev nD) :
    (∀ t, (pdats m p c).owed t = 0) ∧ (∀ w, (pdats m p c).q w = fullShare) ∧ ∀ t x, x ∈ (pdats m p c).recorded t := by
  match p with
  | 0 | 1 | 2 | 3 => exact ⟨fun _ => rfl, fun _ => rfl, fun _ _ => trivial⟩

/-- One region's record from what differs between regions: the contents it is entered with (`V`) and left with (`X`: the arrays' final contents, `V`'s elsewhere), its body obligation and its invariant's two ends. -/
def regOf (p : Fin 4) (h : Pipeline.LaunchFacts (nD := nD) (τ := τ) cfgs p) (V X : Dev nD → Valuation τ sig (Elt F))
    (hbody : ∀ c, BodyObligation (pdats m p c) (defs₀ (F := F)) Variants.none () Set.univ)
    (hA : ∀ c w, (pdats m p c).A w = V c (Pipeline.arrRef (cfgs p).spec w))
    (hin : ∀ c, Pipeline.ΦA (cfgs p).spec c ⊢ (pdats m p c).Φ 0)
    (hout : ∀ c, (pdats m p c).Φ (Fin.last (cfgs p).N) ⊢ Pipeline.ΦA (cfgs p).spec c)
    (hF : ∀ c w, (pdats m p c).arrAt w (cfgs p).N = X c (Pipeline.arrRef (cfgs p).spec w))
    (hrest : ∀ c b, b ∉ Finset.univ.image (Pipeline.arrRef (cfgs p).spec) → X c b = V c b) :
    Pipeline.RegionSeg (pcfgs (F := F)) adm (pdats m) () defs₀ 𝒱₀ L lv p where
  win := h.win.to₀
  block_pos := h.block_pos
  stage_whole := h.stage_whole
  K := PEmpty
  osem k := k.elim
  ho := Pipeline.OwnSemFacts.none _
  hbody c := (hbody c).loose
  hwaits := Pipeline.hwaits_of_owed_zero _ _ _ _ L lv p fun c => (pdats_plain m p c).1
  pre c := iprop(StableHlo.held (c : Thread nD τ) (Pipeline.ucRefs τ sig) (V c) ∗ R c)
  post c := iprop(StableHlo.held (c : Thread nD τ) (Pipeline.ucRefs τ sig) (X c) ∗ R c)
  X c := iprop(∃ r, prngReg c r)
  Y c := iprop(∃ r, prngReg c r)
  Z c := Pipeline.unscopedRest (cfgs p).spec c fun b => V c b
  hentry c := by
    have hsplit := Pipeline.arrays_of_unscopedBufs (p := p) (pcfgs (F := F)) adm (pdats m) h.win h.arr_whole c
      ((pdats m p c).share_full (pdats_plain m p c).2.1) (fun b => V c b) (hA c)
    rw [Pipeline.unscopedBufs_held] at hsplit
    unfold Pipeline.prefHeld Pipeline.Dat.owesAt Pipeline.owesWithin
    rw [show (Finset.univ : Finset (Fin 0)) = ∅ from rfl, BI.bigSep_empty, (pdats_plain m p c).1]
    iintro ⟨⟨Hub, Hp, %W, HO⟩, -, -⟩
    ihave H := hsplit $$ Hub
    icases H with ⟨Ha, Hrest⟩
    imodintro
    iframe Ha Hp Hrest
    isplitr; · iempintro
    iexists W; iframe HO; ipureintro; exact fun _ _ => Or.inl ((pdats_plain m p c).2.2 _ _)
  hin c := by
    refine .trans ?_ (hin c); unfold Pipeline.ΦA
    iintro ⟨Hp, -, Hr⟩
    iframe
  hout c := by
    rw [Pipeline.ownSems0_none]; refine (hout c).trans ?_; unfold Pipeline.ΦA
    iintro ⟨Hr, Hp⟩
    iframe; iempintro
  hexit c := by
    have hjoin := Pipeline.unscopedBufs_of_arrays (p := p) (pcfgs (F := F)) adm h.win h.arr_whole c (pdats m) ((pdats m p c).share_full (pdats_plain m p c).2.1)
      (fun b => V c b) (fun b => X c b) ((pdats m p c).arrAt · (cfgs p).N) (hF c) (hrest c)
    rw [Pipeline.unscopedBufs_held] at hjoin
    unfold Pipeline.Dat.owesAt Pipeline.owesWithin; rw [(pdats_plain m p c).1]
    iintro ⟨Ha, ⟨%W, -, HO⟩, HY, Hrest⟩
    imodintro
    isplitl [Ha Hrest]
    · iapply hjoin; iframe
    isplitl [HY]; · iexact HY
    iexists W; iexact HO

theorem ne_arr {W gr : Nat} {spec : Fin W → Pipeline.WinSpec sig gr} {b : Ref sig .tc} (hb : b ∉ Finset.univ.image (Pipeline.arrRef spec))
    (w : Fin W) : Proc.devRef (τ := τ) .tc b ≠ Proc.devRef .tc (Pipeline.arrRef spec w) :=
  StableHlo.devRef_ne_of_ne fun h => hb (h ▸ Finset.mem_image_of_mem _ (Finset.mem_univ w))

theorem hF0 (c : Dev nD) (w : Fin cfg0.W) : (dat0 (W1 m) c).arrAt w cfg0.N = V2 m (outsF m) c (Pipeline.arrRef spec0 w) := by
  match w with
  | 0 | 1 | 2 =>
    exact ((dat0 (W1 m) c).arrAt_in _ (by rfl) _).trans ((A_eq0 (W1 m) c _).trans (Function.update_of_ne (StableHlo.devRef_ne_of_ne (by decide)) _ _).symm)
  | 3 => exact Eq.symm ((Function.update_self ..).trans (outs_2 m (o8a m) (o8b m) c))

def reg0 : Pipeline.RegionSeg (pcfgs (F := F)) adm (pdats m) () defs₀ 𝒱₀ L lv 0 :=
  regOf m 0 launch0 (V1 m) (V2 m (outsF m)) (body_obligation0 (W1 m)) (A_eq0 (W1 m)) (fun _ => .rfl) (fun _ => .rfl) (hF0 m)
    fun c b hb => Function.update_of_ne (ne_arr hb 3) _ _

/-- The contents region 1 is left with: as entered, its output array at its final contents. -/
def X4 (c : Dev nD) : Valuation τ sig (Elt F) := Function.update (U3 m c) main_v24 (o4 m c)

theorem hF1 (c : Dev nD) (w : Fin cfg1.W) : (dat1 (W3 m) c).arrAt w cfg1.N = X4 m c (Pipeline.arrRef spec1 w) := by
  match w with
  | 0 | 1 | 2 | 3 | 4 =>
    exact ((dat1 (W3 m) c).arrAt_in _ (by rfl) _).trans ((A_eq1 (W3 m) c _).trans (Function.update_of_ne (StableHlo.devRef_ne_of_ne (by decide)) _ _).symm)
  | 5 => exact Eq.symm (Function.update_self ..)

def reg1 : Pipeline.RegionSeg (pcfgs (F := F)) adm (pdats m) () defs₀ 𝒱₀ L lv 1 :=
  regOf m 1 launch1 (U3 m) (X4 m) (body_obligation1 (W3 m)) (A_eq1 (W3 m)) (fun _ => .rfl) (fun _ => .rfl) (hF1 m)
    fun c b hb => Function.update_of_ne (ne_arr hb 5) _ _

def X6 (c : Dev nD) : Valuation τ sig (Elt F) := Function.update (U5 m c) main_v36 (o6 m c)

theorem hF2 (c : Dev nD) (w : Fin cfg2.W) : (dat2 (W5 m) c).arrAt w cfg2.N = X6 m c (Pipeline.arrRef spec2 w) := by
  match w with
  | 0 | 1 | 2 | 3 | 4 =>
    exact ((dat2 (W5 m) c).arrAt_in _ (by rfl) _).trans ((A_eq2 (W5 m) c _).trans (Function.update_of_ne (StableHlo.devRef_ne_of_ne (by decide)) _ _).symm)
  | 5 => exact Eq.symm (Function.update_self ..)

def reg2 : Pipeline.RegionSeg (pcfgs (F := F)) adm (pdats m) () defs₀ 𝒱₀ L lv 2 :=
  regOf m 2 launch2 (U5 m) (X6 m) (body_obligation2 (W5 m)) (A_eq2 (W5 m)) (fun _ => .rfl) (fun _ => .rfl) (hF2 m)
    fun c b hb => Function.update_of_ne (ne_arr hb 5) _ _

attribute [local irreducible] U7

/-- The contents region 3 is left with: as entered, its two output arrays at their final contents. -/
def X8 (c : Dev nD) : Valuation τ sig (Elt F) :=
  Function.update (Function.update (U7 m c) main_v49_0 (o8a m c)) main_v49_1 (o8b m c)

theorem V8_eq (c : Dev nD) : V8 m (outsF m) c = X8 m c := by
  show Function.update (Function.update (V7 m (outsF m) c) main_v49_0 (outsF m 8 main_v49_0 c)) main_v49_1 (outsF m 8 main_v49_1 c) = _
  rw [V7_eq, show outsF m 8 main_v49_0 c = o8a m c from outs_8a m (o8a m) (o8b m) c,
    show outsF m 8 main_v49_1 c = o8b m c from outs_8b m (o8a m) (o8b m) c]
  rfl

theorem hF3 (c : Dev nD) (w : Fin cfg3.W) : (dat3 (W7 m) c).arrAt w cfg3.N = X8 m c (Pipeline.arrRef spec3 w) := by
  match w with
  | 0 | 1 | 2 | 3 | 4 =>
    exact ((dat3 (W7 m) c).arrAt_in _ (by rfl) _).trans ((A_eq3 (W7 m) c _).trans ((Function.update_of_ne (StableHlo.devRef_ne_of_ne (by decide)) _ _).trans (Function.update_of_ne (StableHlo.devRef_ne_of_ne (by decide)) _ _)).symm)
  | 5 => exact Eq.symm ((Function.update_of_ne (StableHlo.devRef_ne_of_ne (by decide)) _ _).trans (Function.update_self ..))
  | 6 => exact Eq.symm (Function.update_self ..)

def reg3 : Pipeline.RegionSeg (pcfgs (F := F)) adm (pdats m) () defs₀ 𝒱₀ L lv 3 :=
  regOf m 3 launch3 (U7 m) (X8 m) (body_obligation3 (W7 m)) (A_eq3 (W7 m)) (hin3 (W7 m)) (hout3 (W7 m)) (hF3 m)
    fun c b hb => (Function.update_of_ne (ne_arr hb 6) _ _).trans (Function.update_of_ne (ne_arr hb 5) _ _)

end Cert.KernelIdeal.Rg

end
-- ==== Proof.Run.lean ====
import proofs.«428185_j66005057405150_3_alg».proof.Proof.ValueCond
import proofs.«428185_j66005057405150_3_alg».proof.Proof.Segs

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ)

set_option backward.isDefEq.respectTransparency.types false in
theorem run_value (ρ : Dev nD → PrngReg) :
    θ_run defs (onTc (τ := τ) (main (F := F))) ⟨m, fun _ => 0, ρ⟩ (fun r => ∀ c : Dev nD,
      r.2.mem ((c.tc : Thread nD τ).loc main_v57) = V9 m (outsF m) c main_v57
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  value_cond m (EP := emb₁) (ι := ()) (𝒱₀ := 𝒱₀) (L := L) (lv := lv) (hL := fun _ _ => rfl) (ρ := ρ) (outs := outsF m) (pdats := pdats m)
      (O₀ := 0) (G := fun _ => (BI.emp : sProp 𝕄))
      (u₀ := initOf (Pipeline.cells cfgs cellOf_inj) (Pipeline.launchToks cfgs cellOf_inj)) (hu₀ := launch_ghost)
      (E := fun _ c => R c) (hE0 := ride_init ρ) (hE4 := ride_end)
      (R0 := reg0 m) (hpre0 := fun c => .rfl) (hpost0 := fun c => .rfl)
      (R1 := reg1 m) (hpre1 := fun c => V3_eq m (o8a m) (o8b m) c ▸ .rfl) (hpost1 := fun c => V4_eq m (o8a m) (o8b m) c ▸ .rfl)
      (R2 := reg2 m) (hpre2 := fun c => V5_eq m (o8a m) (o8b m) c ▸ .rfl) (hpost2 := fun c => V6_eq m (o8a m) (o8b m) c ▸ .rfl)
      (R3 := reg3 m) (hpre3 := fun c => V7_eq m (o8a m) (o8b m) c ▸ .rfl)
      (hpost3 := fun c => V8_eq m c ▸ .rfl)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (run_value m ρ)

end Cert.KernelIdeal.Rg
end
-- ==== Proof.Frames.lean ====
import proofs.«428185_j66005057405150_3_alg».proof.Defs
import proofs.«428185_j66005057405150_3_alg».proof.Proof.Gen.Kernel
import proofs.«428185_j66005057405150_3_alg».proof.Proof.Gen.KernelIdeal
import proofs.«428185_j66005057405150_3_alg».proof.Proof.Gen.ReferenceIdeal
import proofs.«428185_j66005057405150_3_alg».proof.Proof.Gen.Pre_finite_inputs
import proofs.«428185_j66005057405150_3_alg».proof.Proof.K.Run
import proofs.«428185_j66005057405150_3_alg».proof.Proof.Run
import proofs.«428185_j66005057405150_3_alg».proof.Proof.Gen.ReferenceIdeal.Run

noncomputable section

namespace Cert.Proof.Frames

open Idealize.ShloMosaic Idealize.SL.Sem

theorem frame_k : Cert.frame_Kernel := fun m ρ _ => Cert.Kernel.Rg.frame (F := Bits) m ρ

theorem frame_ki : Cert.frame_KernelIdeal := fun m ρ _ => Cert.KernelIdeal.Rg.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

end Cert.Proof.Frames

end
-- ==== Proof.LibIndexMaps.lean ====
import Idealize.ShloMosaic.PureOps.Ideal
import Idealize.ShloMosaic.Lib.ValueIdx

noncomputable section

namespace Cert.Gcn.IndexMaps

open Idealize.ShloMosaic Idealize.ShloMosaic.ValueIdx

theorem fin2_cases (a : Fin 2) : a = 0 ∨ a = 1 := by
  rcases a with ⟨v, hv⟩
  rcases (by omega : v = 0 ∨ v = 1) with rfl | rfl
  · exact Or.inl rfl
  · exact Or.inr rfl

theorem mem_kept {s : Shape} (axes : List (Fin s.rank)) (a : Fin s.rank) : a ∈ s.kept axes ↔ a ∉ axes := by
  simp [Shape.kept, List.mem_filter, List.mem_finRange]

theorem kept_snd {s : Shape} (hr : s.rank = 2) (axes : List (Fin s.rank))
    (hne : ∃ a ∈ axes, a.val = 1) : ∀ x ∈ s.kept axes, x.val = 0 := by
  intro x hx
  rw [mem_kept] at hx
  obtain ⟨a, ha, hav⟩ := hne
  have hxa : x ≠ a := fun h => hx (h ▸ ha)
  have hxv : x.val ≠ a.val := fun h => hxa (Fin.ext h)
  have := x.isLt
  omega

theorem coord_of_val0 {e f : ℕ} (j : (⟨2, ![e, f]⟩ : Shape).Idx) (X : Fin 2) (hX : X.val = 0) : (j X).val = (j 0).val := by
  have : X = 0 := Fin.ext hX
  subst this; rfl

theorem coord_of_val1 {e f : ℕ} (j : (⟨2, ![e, f]⟩ : Shape).Idx) (X : Fin 2) (hX : X.val = 1) : (j X).val = (j 1).val := by
  have : X = 1 := Fin.ext hX
  subst this; rfl

theorem sum_idx1 {M : Type*} [AddCommMonoid M] {n : ℕ} (f : (⟨1, ![n]⟩ : Shape).Idx → M) :
    ∑ i, f i = ∑ a : Fin n, f (ix1 a) := by
  let eqv : (⟨1, ![n]⟩ : Shape).Idx ≃ Fin n :=
    ⟨fun i => i 0, ix1, fun i => (eq_ix1 i).symm, fun _ => rfl⟩
  rw [← Equiv.sum_comp eqv.symm f]
  rfl

theorem scatter1_siIdx {n e : ℕ} (d : ScatterDims ⟨1, ![n]⟩ ⟨2, ![e, 1]⟩ ⟨1, ![e]⟩)
    (hivd : d.indexVectorDim = 1) (j : (⟨1, ![e]⟩ : Shape).Idx) (c : Fin d.scatterDimsToOperandDims.length) :
    d.siIdx j c = ix2 (n0 := e) (n1 := 1) (j 0) 0 := by
  funext b
  match b with
  | ⟨0, _⟩ =>
    unfold ScatterDims.siIdx
    rw [dif_neg (by rw [hivd]; simp)]
    unfold ScatterDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

theorem scatter1_resultIdx_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (j : (⟨1, ![e]⟩ : Shape).Idx) (i : (⟨1, ![n]⟩ : Shape).Idx) :
    d.resultIdx? j idx = some i ↔ (idx (ix2 (j 0) (0 : Fin 1))).toInt = (((i 0).val : ℕ) : Int) := by
  have hm : (0 : Fin 1) ∈ d.scatterDimsToOperandDims := by rw [hsd]; exact List.mem_singleton.mpr rfl
  have hk : (0 : Fin 1) ∉ d.sKept := by rw [ScatterDims.sKept, mem_kept, hiw]; simp
  have hstart : d.start j idx 0 = (idx (ix2 (j 0) (0 : Fin 1))).toInt := by
    unfold ScatterDims.start
    rw [dif_pos hm, scatter1_siIdx d hivd]
  have hwin : d.window j 0 = 0 := by
    unfold ScatterDims.window
    rw [dif_neg hk]
  have hlt : (i 0).val < n := (i 0).isLt
  unfold ScatterDims.resultIdx?
  split_ifs with h
  · rw [Option.some.injEq]
    have h0 := h 0
    rw [hstart, hwin] at h0
    constructor
    · intro hf
      have hv := congrArg Fin.val (congrFun hf 0)
      simp only [hstart, hwin] at hv
      omega
    · intro he
      funext a
      obtain rfl : a = 0 := Subsingleton.elim _ _
      apply Fin.ext
      simp only [hstart, hwin]
      omega
  · constructor
    · intro hh; cases hh
    · intro he
      exfalso
      apply h
      intro a
      obtain rfl : a = 0 := Subsingleton.elim _ _
      rw [hstart, hwin, he]
      show (0 : Int) ≤ ((i 0).val : ℕ) + ((0 : ℕ) : Int) ∧ (((i 0).val : ℕ) : Int) + ((0 : ℕ) : Int) < (n : ℕ)
      omega

theorem scatter1_resultIdx_ix_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (p : Fin e) (r : Fin n) :
    d.resultIdx? (ix1 p) idx = some (ix1 r) ↔ (idx (ix2 p (0 : Fin 1))).toInt = ((r.val : ℕ) : Int) :=
  scatter1_resultIdx_iff d huw hiw hsd hivd idx (ix1 p) (ix1 r)

theorem hostScatterAdd1_apply {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (x : (⟨1, ![n]⟩ : Shape).Idx → EReal) (idx : IVec ⟨2, ![e, 1]⟩ w) (upd : (⟨1, ![e]⟩ : Shape).Idx → EReal)
    (r : Fin n) :
    Ideal.hostScatterAdd d x idx upd (ix1 r)
      = x (ix1 r) + ∑ p : Fin e, if (idx (ix2 p (0 : Fin 1))).toInt = ((r.val : ℕ) : Int) then upd (ix1 p) else 0 := by
  unfold Ideal.hostScatterAdd
  congr 1
  rw [Finset.sum_filter, sum_idx1]
  refine Finset.sum_congr rfl (fun p _ => ?_)
  simp only [scatter1_resultIdx_ix_iff d huw hiw hsd hivd]

theorem scatter2_siIdx {n f e : ℕ} (d : ScatterDims ⟨2, ![n, f]⟩ ⟨2, ![e, 1]⟩ ⟨2, ![e, f]⟩)
    (huw : d.updateWindowDims = [1]) (hivd : d.indexVectorDim = 1) (j : (⟨2, ![e, f]⟩ : Shape).Idx)
    (c : Fin d.scatterDimsToOperandDims.length) :
    d.siIdx j c = ix2 (n0 := e) (n1 := 1) (j 0) 0 := by
  have hus : ∀ x ∈ d.uScatter, x.val = 0 :=
    kept_snd rfl _ (by rw [huw]; exact ⟨1, List.mem_singleton.mpr rfl, rfl⟩)
  funext b
  match b with
  | ⟨0, _⟩ =>
    unfold ScatterDims.siIdx
    rw [dif_neg (by rw [hivd]; simp)]
    unfold ScatterDims.siCoord
    apply Fin.ext
    simp only [Fin.val_cast]
    exact coord_of_val0 j _ (hus _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

theorem scatter2_resultIdx_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (j : (⟨2, ![e, f]⟩ : Shape).Idx) (i : (⟨2, ![n, f]⟩ : Shape).Idx) :
    d.resultIdx? j idx = some i ↔
      (idx (ix2 (j 0) (0 : Fin 1))).toInt = (((i 0).val : ℕ) : Int) ∧ (j 1).val = (i 1).val := by
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [ScatterDims.sKept, mem_kept, hiw]; simp
  have hk1 : (1 : Fin 2) ∈ d.sKept := by rw [ScatterDims.sKept, mem_kept, hiw]; simp
  have hs0 : d.start j idx 0 = (idx (ix2 (j 0) (0 : Fin 1))).toInt := by
    unfold ScatterDims.start
    rw [dif_pos hm0, scatter2_siIdx d huw hivd]
  have hs1 : d.start j idx 1 = 0 := by
    unfold ScatterDims.start
    rw [dif_neg hm1]
  have hw0 : d.window j 0 = 0 := by
    unfold ScatterDims.window
    rw [dif_neg hk0]
  have hw1 : d.window j 1 = (j 1).val := by
    unfold ScatterDims.window
    rw [dif_pos hk1]
    refine coord_of_val1 j _ ?_
    have hall : ∀ x ∈ d.updateWindowDims, x.val = 1 := by rw [huw]; simp
    exact hall _ (List.getElem_mem _)
  have hlt0 : (i 0).val < n := (i 0).isLt
  have hlt1 : (i 1).val < f := (i 1).isLt
  have hjlt1 : (j 1).val < f := (j 1).isLt
  unfold ScatterDims.resultIdx?
  split_ifs with h
  · rw [Option.some.injEq]
    have h0 := h 0
    rw [hs0, hw0] at h0
    constructor
    · intro hf
      have hv0 := congrArg Fin.val (congrFun hf 0)
      have hv1 := congrArg Fin.val (congrFun hf 1)
      simp only [hs0, hw0] at hv0
      simp only [hs1, hw1] at hv1
      constructor <;> omega
    · rintro ⟨he, hc⟩
      funext a
      rcases fin2_cases a with rfl | rfl
      · apply Fin.ext
        simp only [hs0, hw0]
        omega
      · apply Fin.ext
        simp only [hs1, hw1]
        omega
  · constructor
    · intro hh; cases hh
    · rintro ⟨he, hc⟩
      exfalso
      apply h
      intro a
      rcases fin2_cases a with rfl | rfl
      · rw [hs0, hw0, he]
        show (0 : Int) ≤ ((i 0).val : ℕ) + ((0 : ℕ) : Int) ∧ (((i 0).val : ℕ) : Int) + ((0 : ℕ) : Int) < (n : ℕ)
        omega
      · rw [hs1, hw1]
        show (0 : Int) ≤ 0 + (((j 1).val : ℕ) : Int) ∧ (0 : Int) + (((j 1).val : ℕ) : Int) < (f : ℕ)
        omega

theorem scatter2_resultIdx_ix_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (p : Fin e) (c : Fin f) (r : Fin n) (c' : Fin f) :
    d.resultIdx? (ix2 p c) idx = some (ix2 r c') ↔
      (idx (ix2 p (0 : Fin 1))).toInt = ((r.val : ℕ) : Int) ∧ c = c' := by
  rw [scatter2_resultIdx_iff d huw hiw hsd hivd idx (ix2 p c) (ix2 r c')]
  exact and_congr Iff.rfl Fin.val_inj

theorem hostScatterAdd2_apply {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : (⟨2, ![n, f]⟩ : Shape).Idx → EReal) (idx : IVec ⟨2, ![e, 1]⟩ w) (upd : (⟨2, ![e, f]⟩ : Shape).Idx → EReal)
    (r : Fin n) (c : Fin f) :
    Ideal.hostScatterAdd d x idx upd (ix2 r c)
      = x (ix2 r c) + ∑ p : Fin e, if (idx (ix2 p (0 : Fin 1))).toInt = ((r.val : ℕ) : Int) then upd (ix2 p c) else 0 := by
  unfold Ideal.hostScatterAdd
  congr 1
  rw [Finset.sum_filter, sum_idx2]
  refine Finset.sum_congr rfl (fun p _ => ?_)
  simp only [scatter2_resultIdx_ix_iff d huw hiw hsd hivd]
  by_cases hT : (idx (ix2 p (0 : Fin 1))).toInt = ((r.val : ℕ) : Int)
  · simp only [hT, true_and, if_true]
    rw [Finset.sum_ite_eq']
    simp
  · simp only [hT, false_and, if_false]
    exact Finset.sum_const_zero

theorem gather_siIdx_rank1 {s : Shape} {e c : ℕ} (d : GatherDims s ⟨2, ![e, c]⟩ ⟨1, ![e]⟩)
    (hivd : d.indexVectorDim = 1) (j : (⟨1, ![e]⟩ : Shape).Idx) (kv : ℕ) (hkv : kv < d.startIndexMap.length)
    (v : Fin c) (hv : kv = v.val) :
    d.siIdx j ⟨kv, hkv⟩ = ix2 (n0 := e) (n1 := c) (j 0) v := by
  funext b
  match b with
  | ⟨0, _⟩ =>
    unfold GatherDims.siIdx
    rw [dif_neg (by rw [hivd]; simp)]
    unfold GatherDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    unfold GatherDims.siIdx
    rw [dif_pos (by rw [hivd])]
    apply Fin.ext
    exact hv

theorem gather2_siIdx {s : Shape} {e f : ℕ} (d : GatherDims s ⟨2, ![e, 1]⟩ ⟨2, ![e, f]⟩)
    (hod : d.offsetDims = [1]) (hivd : d.indexVectorDim = 1) (j : (⟨2, ![e, f]⟩ : Shape).Idx)
    (c : Fin d.startIndexMap.length) :
    d.siIdx j c = ix2 (n0 := e) (n1 := 1) (j 0) 0 := by
  have hbd : ∀ x ∈ d.batchDims, x.val = 0 :=
    kept_snd rfl _ (by rw [hod]; exact ⟨1, List.mem_singleton.mpr rfl, rfl⟩)
  funext b
  match b with
  | ⟨0, _⟩ =>
    unfold GatherDims.siIdx
    rw [dif_neg (by rw [hivd]; simp)]
    unfold GatherDims.siCoord
    apply Fin.ext
    simp only [Fin.val_cast]
    exact coord_of_val0 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

end Cert.Gcn.IndexMaps

end
-- ==== Proof.LibGatherClamp.lean ====
import Idealize.ShloMosaic.PureOps.Ideal
import Idealize.ShloMosaic.Lib.ValueIdx
import proofs.«428185_j66005057405150_3_alg».proof.Proof.LibIndexMaps

noncomputable section

namespace Cert.Gcn.GatherClamp

open Idealize.ShloMosaic Idealize.ShloMosaic.ValueIdx Cert.Gcn.IndexMaps

theorem gather1_clamp_apply {α : Type} {n e w : ℕ} (hn : 0 < n) (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e) :
    Host.gather d x idx (ix1 p) = x (ix1 ⟨min (idx (ix2 p (0 : Fin 1))).toInt.toNat (n - 1), by omega⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start (ix1 p) idx 0 + d.batchCoord (ix1 p) 0 + d.offCoord (ix1 p) 0
    = min (idx (ix2 p (0 : Fin 1))).toInt.toNat (n - 1)
  rw [GatherDims.batchCoord_eq_zero _ _ _ hb, GatherDims.offCoord_eq_zero _ _ _ hkp]
  unfold GatherDims.start
  rw [dif_pos hm, gather_siIdx_rank1 d hivd (ix1 p) _ _ (0 : Fin 1) hi, hsl]
  rfl

theorem gather2_clamp_apply {α : Type} {n f e w : ℕ} (hn : 0 < n) (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f) :
    Host.gather d x idx (ix2 p c) = x (ix2 ⟨min (idx (ix2 p (0 : Fin 1))).toInt.toNat (n - 1), by omega⟩ c) := by
  unfold Host.gather
  congr 1
  funext a
  apply Fin.ext
  have hb : ∀ a : Fin 2, a ∉ d.operandBatchingDims := by intro a; rw [hob]; exact List.not_mem_nil
  show d.start (ix2 p c) idx a + d.batchCoord (ix2 p c) a + d.offCoord (ix2 p c) a
    = (ix2 (⟨min (idx (ix2 p (0 : Fin 1))).toInt.toNat (n - 1), by omega⟩ : Fin n) c a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hsl]
    rfl
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + ((ix2 p c) _).val = c.val
    have hall : ∀ x ∈ d.offsetDims, x.val = 1 := by rw [hod]; simp
    rw [coord_of_val1 (ix2 p c) _ (hall _ (List.getElem_mem _))]
    show 0 + 0 + c.val = c.val
    omega

end Cert.Gcn.GatherClamp

end
-- ==== Proof.EdgeIdx.lean ====
import Idealize.ShloMosaic.PureOps.Ideal
import Idealize.ShloMosaic.Lib.ValueIdx

noncomputable section

namespace Cert.GcnSpec

open Idealize.ShloMosaic Idealize.ShloMosaic.ValueIdx

def normW (w : BitVec 32) : BitVec 32 := if w.slt 0#32 then w + 100000#32 else w

def rowOf (w : BitVec 32) : Fin 100000 := ⟨min w.toInt.toNat 99999, by omega⟩

abbrev EdgeArr : Shape := ⟨2, ![2, 1250000]⟩

def srcRow (ei : EdgeArr.Idx → BitVec 32) (e : Fin 1250000) : Fin 100000 := rowOf (normW (ei (ix2 (0 : Fin 2) e)))

def dstRow (ei : EdgeArr.Idx → BitVec 32) (e : Fin 1250000) : Fin 100000 := rowOf (normW (ei (ix2 (1 : Fin 2) e)))

def endsAt (ei : EdgeArr.Idx → BitVec 32) (e : Fin 1250000) (n : Fin 100000) : Prop :=
  (ei (ix2 (1 : Fin 2) e)).toInt = ((n.val : ℕ) : Int)

instance (ei : EdgeArr.Idx → BitVec 32) (e : Fin 1250000) (n : Fin 100000) : Decidable (endsAt ei e n) := by
  unfold endsAt; infer_instance

theorem dstRow_of_endsAt (ei : EdgeArr.Idx → BitVec 32) (e : Fin 1250000) (n : Fin 100000) (h : endsAt ei e n) :
    dstRow ei e = n := by
  unfold endsAt at h
  unfold dstRow rowOf normW
  have hn : n.val < 100000 := n.isLt
  have hnn : ¬ (ei (ix2 (1 : Fin 2) e)).slt 0#32 = true := by
    rw [BitVec.slt_eq_decide]; simp only [decide_eq_true_eq, not_lt]; rw [h]; simp [BitVec.toInt_zero]
  rw [if_neg hnn]
  apply Fin.ext
  show min (ei (ix2 (1 : Fin 2) e)).toInt.toNat 99999 = n.val
  rw [h]; omega

end Cert.GcnSpec

end
-- ==== Proof.Spec.lean ====
import Idealize.ShloMosaic.PureOps.Ideal
import Idealize.ShloMosaic.Lib.ValueIdx

noncomputable section

namespace Cert.GcnSpec

open Idealize.ShloMosaic Idealize.ShloMosaic.ValueIdx
open scoped BigOperators

abbrev NF : Shape := ⟨2, ![100000, 64]⟩
abbrev NC : Shape := ⟨2, ![100000, 1]⟩
abbrev FF : Shape := ⟨2, ![64, 64]⟩
abbrev BF : Shape := ⟨2, ![1, 64]⟩

def scaled (x : NF.Idx → EReal) (w : FF.Idx → EReal) (d : NC.Idx → EReal) (n : Fin 100000) (j : Fin 64) : EReal :=
  d (ix2 n (0 : Fin 1)) * ∑ k : Fin 64, x (ix2 n k) * w (ix2 k j)

def next (a h : NF.Idx → EReal) (d : NC.Idx → EReal) (b : BF.Idx → EReal) (w : FF.Idx → EReal) (n : Fin 100000) (j : Fin 64) : EReal :=
  d (ix2 n (0 : Fin 1)) * ∑ k : Fin 64,
    max (d (ix2 n (0 : Fin 1)) * (a (ix2 n k) + h (ix2 n k)) + b (ix2 (0 : Fin 1) k)) 0 * w (ix2 k j)

def last (a h : NF.Idx → EReal) (d : NC.Idx → EReal) (b : BF.Idx → EReal) (n : Fin 100000) (j : Fin 64) : EReal :=
  d (ix2 n (0 : Fin 1)) * (a (ix2 n j) + h (ix2 n j)) + b (ix2 (0 : Fin 1) j)

def member (batch : NC.Idx → BitVec 32) (n : Fin 100000) (g : Fin 256) : EReal :=
  if batch (ix2 n (0 : Fin 1)) = BitVec.ofNat 32 g.val then 1 else 0

def sums (a h : NF.Idx → EReal) (d : NC.Idx → EReal) (b : BF.Idx → EReal) (batch : NC.Idx → BitVec 32) (g : Fin 256) (j : Fin 64) : EReal :=
  ∑ n : Fin 100000, member batch n g * last a h d b n j

def counts (batch : NC.Idx → BitVec 32) (g : Fin 256) : EReal :=
  ∑ n : Fin 100000, member batch n g * 1

end Cert.GcnSpec

end
-- ==== Proof.RefValue.lean ====
import proofs.«428185_j66005057405150_3_alg».proof.Proof.Gen.ReferenceIdeal.Run
import proofs.«428185_j66005057405150_3_alg».proof.Proof.Gen.ReferenceIdeal.Read
import proofs.«428185_j66005057405150_3_alg».proof.Proof.LibGatherClamp
import proofs.«428185_j66005057405150_3_alg».proof.Proof.LibIndexMaps
import proofs.«428185_j66005057405150_3_alg».proof.Proof.EdgeIdx
import proofs.«428185_j66005057405150_3_alg».proof.Proof.Spec

noncomputable section

namespace Cert.ReferenceIdeal.RefValue

open Cert.ReferenceIdeal Cert.ReferenceIdeal.Gen Cert.ReferenceIdeal.Read
open Idealize.ShloMosaic Idealize.ShloMosaic.ValueIdx
open Cert.GcnSpec Cert.Gcn.IndexMaps Cert.Gcn.GatherClamp
open scoped BigOperators

theorem one_f32 : Ideal.ofBits .f32 0x3F800000#32 = 1 := by
  simp [Ideal.ofBits, Ideal.ieee, -EReal.coe_mul]; norm_num

theorem norm_lane (w : BitVec 32) :
    Scalar.select (IntOp.cmpi .slt w 0#32) (IntOp.addi w 100000#32) w = normW w := by
  unfold Scalar.select IntOp.cmpi IntOp.addi normW
  cases h : w.slt 0#32 <;> simp [h]

theorem splat_apply {α : Type} {t : Shape} (h : S_.BroadcastsInDim t (![] : Fin 0 → Fin t.rank)) (y : S_.Idx → α) (i : t.Idx) :
    broadcastInDim t ![] h y i = y ix0 :=
  broadcastInDim_apply _ h y i ix0 (fun a => a.elim0)

theorem col_apply {α : Type} {m : ℕ} (hm : m ≠ 1)
    (h : (⟨1, ![m]⟩ : Shape).BroadcastsInDim ⟨2, ![m, 1]⟩ (![0] : Fin 1 → Fin 2)) (y : (⟨1, ![m]⟩ : Shape).Idx → α) (p : Fin m) :
    broadcastInDim ⟨2, ![m, 1]⟩ ![0] h y (ix2 p (0 : Fin 1)) = y (ix1 p) :=
  broadcastInDim_apply _ h y (ix2 p 0) (ix1 p) (fun a => match a with
    | ⟨0, _⟩ => by show p.val = if m = 1 then 0 else p.val; rw [if_neg hm])

theorem cols_apply {α : Type} {m f : ℕ} (hm : m ≠ 1)
    (h : (⟨2, ![m, 1]⟩ : Shape).BroadcastsInDim ⟨2, ![m, f]⟩ (![0, 1] : Fin 2 → Fin 2)) (y : (⟨2, ![m, 1]⟩ : Shape).Idx → α)
    (p : Fin m) (j : Fin f) :
    broadcastInDim ⟨2, ![m, f]⟩ ![0, 1] h y (ix2 p j) = y (ix2 p (0 : Fin 1)) :=
  broadcastInDim_apply _ h y (ix2 p j) (ix2 p 0) (fun a => match a with
    | ⟨0, _⟩ => by show p.val = if m = 1 then 0 else p.val; rw [if_neg hm]
    | ⟨1, _⟩ => by show 0 = if (1 : ℕ) = 1 then 0 else j.val; rw [if_pos rfl])

theorem row_apply {α : Type} {f : ℕ} (hf : f ≠ 1)
    (h : (⟨1, ![f]⟩ : Shape).BroadcastsInDim ⟨2, ![1, f]⟩ (![1] : Fin 1 → Fin 2)) (y : (⟨1, ![f]⟩ : Shape).Idx → α) (j : Fin f) :
    broadcastInDim ⟨2, ![1, f]⟩ ![1] h y (ix2 (0 : Fin 1) j) = y (ix1 j) :=
  broadcastInDim_apply _ h y (ix2 0 j) (ix1 j) (fun a => match a with
    | ⟨0, _⟩ => by show j.val = if f = 1 then 0 else j.val; rw [if_neg hf])

theorem rows_apply {α : Type} {m f : ℕ} (hf : f ≠ 1)
    (h : (⟨2, ![1, f]⟩ : Shape).BroadcastsInDim ⟨2, ![m, f]⟩ (![0, 1] : Fin 2 → Fin 2)) (y : (⟨2, ![1, f]⟩ : Shape).Idx → α)
    (n : Fin m) (j : Fin f) :
    broadcastInDim ⟨2, ![m, f]⟩ ![0, 1] h y (ix2 n j) = y (ix2 (0 : Fin 1) j) :=
  broadcastInDim_apply _ h y (ix2 n j) (ix2 0 j) (fun a => match a with
    | ⟨0, _⟩ => by show 0 = if (1 : ℕ) = 1 then 0 else n.val; rw [if_pos rfl]
    | ⟨1, _⟩ => by show j.val = if f = 1 then 0 else j.val; rw [if_neg hf])

variable (x0 : (⟨S100000x64, .f32⟩ : BufTy).Contents (Elt Ideal))
  (x1 : (⟨S2x1250000, .i32⟩ : BufTy).Contents (Elt Ideal))
  (x2 : (⟨S100000, .i32⟩ : BufTy).Contents (Elt Ideal))
  (x3 : (⟨S64x64, .f32⟩ : BufTy).Contents (Elt Ideal))
  (x4 : (⟨S64, .f32⟩ : BufTy).Contents (Elt Ideal))
  (x5 : (⟨S64x64, .f32⟩ : BufTy).Contents (Elt Ideal))
  (x6 : (⟨S64, .f32⟩ : BufTy).Contents (Elt Ideal))
  (x7 : (⟨S64x64, .f32⟩ : BufTy).Contents (Elt Ideal))
  (x8 : (⟨S64, .f32⟩ : BufTy).Contents (Elt Ideal))
  (x9 : (⟨S64x2, .f32⟩ : BufTy).Contents (Elt Ideal))
  (x10 : (⟨S2, .f32⟩ : BufTy).Contents (Elt Ideal))

theorem start_word (e : Fin 1250000) :
    val_main_v1 (F := Ideal) x1 (ix1 e) = x1 (ix2 (0 : Fin 2) e) := by
  rw [val_main_v1_apply, val_main_v0_apply]
  refine congrArg x1 (funext fun a => Fin.ext ?_)
  match a with
  | ⟨0, _⟩ => rfl
  | ⟨1, _⟩ => show e.val % 1250000 = e.val; exact Nat.mod_eq_of_lt e.isLt

theorem end_word (e : Fin 1250000) :
    val_main_v3 (F := Ideal) x1 (ix1 e) = x1 (ix2 (1 : Fin 2) e) := by
  rw [val_main_v3_apply, val_main_v2_apply]
  refine congrArg x1 (funext fun a => Fin.ext ?_)
  match a with
  | ⟨0, _⟩ => rfl
  | ⟨1, _⟩ => show e.val % 1250000 = e.val; exact Nat.mod_eq_of_lt e.isLt

def normCol (v : IVec S1250000 32) : IVec S1250000x1 32 :=
  broadcastInDim S1250000x1 ![0] bcast_S1250000_S1250000x1_0
    (select (cmpi .slt v (broadcastInDim S1250000 ![] bcast_S_S1250000 (constantI S_ 32 0#32)))
      (addi v (broadcastInDim S1250000 ![] bcast_S_S1250000 (constantI S_ 32 100000#32))) v)

theorem normCol_apply (v : IVec S1250000 32) (e : Fin 1250000) :
    normCol v (ix2 e (0 : Fin 1)) = normW (v (ix1 e)) := by
  unfold normCol
  rw [col_apply (by decide)]
  show Scalar.select (IntOp.cmpi .slt (v (ix1 e)) (broadcastInDim S1250000 ![] bcast_S_S1250000 (constantI S_ 32 0#32) (ix1 e)))
      (IntOp.addi (v (ix1 e)) (broadcastInDim S1250000 ![] bcast_S_S1250000 (constantI S_ 32 100000#32) (ix1 e))) (v (ix1 e)) = _
  rw [splat_apply, splat_apply]
  exact norm_lane _

def dv (ei : EdgeArr.Idx → BitVec 32) (n : Fin 100000) : EReal :=
  Ideal.rsqrt ((0 + ∑ e : Fin 1250000, if endsAt ei e n then 1 else 0) + 1)

def layer (dv : Fin 100000 → EReal) (ei : EdgeArr.Idx → BitVec 32) (H : Fin 100000 → Fin 64 → EReal) (b : Fin 64 → EReal)
    (n : Fin 100000) (j : Fin 64) : EReal :=
  ((0 + ∑ e : Fin 1250000, if endsAt ei e n then (dv (srcRow ei e) * dv (dstRow ei e)) * H (srcRow ei e) j else 0)
    + (dv n * dv n) * H n j) + b j

def feat (x : NF.Idx → EReal) (w : FF.Idx → EReal) (n : Fin 100000) (j : Fin 64) : EReal :=
  ∑ k : Fin 64, x (ix2 n k) * w (ix2 k j)

def featNext (r : Fin 100000 → Fin 64 → EReal) (w : FF.Idx → EReal) (n : Fin 100000) (j : Fin 64) : EReal :=
  ∑ k : Fin 64, max (r n k) 0 * w (ix2 k j)

def r1 (x0 : NF.Idx → EReal) (ei : EdgeArr.Idx → BitVec 32) (w1 : FF.Idx → EReal) (b1 : (⟨1, ![64]⟩ : Shape).Idx → EReal) :
    Fin 100000 → Fin 64 → EReal :=
  layer (dv ei) ei (feat x0 w1) (fun j => b1 (ix1 j))

def r2 (x0 : NF.Idx → EReal) (ei : EdgeArr.Idx → BitVec 32) (w1 : FF.Idx → EReal) (b1 : (⟨1, ![64]⟩ : Shape).Idx → EReal)
    (w2 : FF.Idx → EReal) (b2 : (⟨1, ![64]⟩ : Shape).Idx → EReal) : Fin 100000 → Fin 64 → EReal :=
  layer (dv ei) ei (featNext (r1 x0 ei w1 b1) w2) (fun j => b2 (ix1 j))

def r3 (x0 : NF.Idx → EReal) (ei : EdgeArr.Idx → BitVec 32) (w1 : FF.Idx → EReal) (b1 : (⟨1, ![64]⟩ : Shape).Idx → EReal)
    (w2 : FF.Idx → EReal) (b2 : (⟨1, ![64]⟩ : Shape).Idx → EReal) (w3 : FF.Idx → EReal) (b3 : (⟨1, ![64]⟩ : Shape).Idx → EReal) :
    Fin 100000 → Fin 64 → EReal :=
  layer (dv ei) ei (featNext (r2 x0 ei w1 b1 w2 b2) w3) (fun j => b3 (ix1 j))

def sumsR (batch : (⟨1, ![100000]⟩ : Shape).Idx → BitVec 32) (r : Fin 100000 → Fin 64 → EReal) (g : Fin 256) (j : Fin 64) : EReal :=
  0 + ∑ n : Fin 100000, if (batch (ix1 n)).toInt = ((g.val : ℕ) : Int) then r n j else 0

def cntR (batch : (⟨1, ![100000]⟩ : Shape).Idx → BitVec 32) (g : Fin 256) : EReal :=
  0 + ∑ n : Fin 100000, if (batch (ix1 n)).toInt = ((g.val : ℕ) : Int) then 1 else 0

theorem endCol_apply (e : Fin 1250000) :
    broadcastInDim S1250000x1 ![0] bcast_S1250000_S1250000x1_0 (val_main_v3 (F := Ideal) x1) (ix2 e (0 : Fin 1))
      = x1 (ix2 (1 : Fin 2) e) := by
  rw [col_apply (by decide)]; exact end_word x1 e

theorem scatterAdd1_read {N E w : ℕ} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : FVec Ideal ⟨1, ![N]⟩ .f32) (idx : IVec ⟨2, ![E, 1]⟩ w) (upd : FVec Ideal ⟨1, ![E]⟩ .f32) (r : Fin N)
    (z : EReal) (P : Fin E → Prop) [DecidablePred P] (g : Fin E → EReal)
    (hz : x (ix1 r) = z) (hP : ∀ p, (idx (ix2 p (0 : Fin 1))).toInt = ((r.val : ℕ) : Int) ↔ P p)
    (hg : ∀ p, upd (ix1 p) = g p) :
    Host.scatterAdd d x idx upd (ix1 r) = z + ∑ p : Fin E, if P p then g p else 0 := by
  refine (hostScatterAdd1_apply d huw hiw hsd hivd x idx upd r).trans ?_
  rw [hz]
  refine congrArg (z + ·) (Finset.sum_congr rfl fun p _ => ?_)
  rw [hg]
  exact if_congr (hP p) rfl rfl

theorem scatterAdd2_read {N Fe E w : ℕ} (d : ScatterDims ⟨2, ![N, Fe]⟩ ⟨2, ![E, 1]⟩ ⟨2, ![E, Fe]⟩)
    (huw : d.updateWindowDims = [1]) (hiw : d.insertedWindowDims = [0]) (hsd : d.scatterDimsToOperandDims = [0])
    (hivd : d.indexVectorDim = 1)
    (x : FVec Ideal ⟨2, ![N, Fe]⟩ .f32) (idx : IVec ⟨2, ![E, 1]⟩ w) (upd : FVec Ideal ⟨2, ![E, Fe]⟩ .f32) (r : Fin N) (c : Fin Fe)
    (z : EReal) (P : Fin E → Prop) [DecidablePred P] (g : Fin E → EReal)
    (hz : x (ix2 r c) = z) (hP : ∀ p, (idx (ix2 p (0 : Fin 1))).toInt = ((r.val : ℕ) : Int) ↔ P p)
    (hg : ∀ p, upd (ix2 p c) = g p) :
    Host.scatterAdd d x idx upd (ix2 r c) = z + ∑ p : Fin E, if P p then g p else 0 := by
  refine (hostScatterAdd2_apply d huw hiw hsd hivd x idx upd r c).trans ?_
  rw [hz]
  refine congrArg (z + ·) (Finset.sum_congr rfl fun p _ => ?_)
  rw [hg]
  exact if_congr (hP p) rfl rfl

theorem zero5_apply (i : S100000.Idx) : val_main_v5 (F := Ideal) i = (0 : EReal) := by
  rw [val_main_v5_apply, val_main_cst_0_apply, Ideal.ofBits_def, Ideal.ofBits_zero_f32]

theorem one4_apply (i : S1250000.Idx) : val_main_v4 (F := Ideal) i = (1 : EReal) := by
  rw [val_main_v4_apply, val_main_cst_apply, Ideal.ofBits_def, one_f32]

theorem one8_apply (i : S100000.Idx) : val_main_v8 (F := Ideal) i = (1 : EReal) := by
  rw [val_main_v8_apply, val_main_cst_1_apply, Ideal.ofBits_def, one_f32]

theorem endCol6_apply (e : Fin 1250000) :
    val_main_v6 (F := Ideal) x1 (ix2 e (0 : Fin 1)) = x1 (ix2 (1 : Fin 2) e) := endCol_apply x1 e

theorem deg_apply (n : Fin 100000) :
    val_main_v7 (F := Ideal) x1 (ix1 n) = ((0 + ∑ e : Fin 1250000, if endsAt x1 e n then 1 else 0 : EReal)) := by
  unfold val_main_v7
  rw [scatterAdd1_read scatter_S100000_S1250000x1_S1250000_n_0_0_1 rfl rfl rfl rfl
    (val_main_v5 (F := Ideal)) (val_main_v6 (F := Ideal) x1) (val_main_v4 (F := Ideal)) n
    (0 : EReal) (fun e => endsAt x1 e n) (fun _ => (1 : EReal))
    (zero5_apply _) (fun e => by rw [endCol6_apply x1 e]; exact Iff.rfl) (fun e => one4_apply _)]

theorem dv_apply (n : Fin 100000) : val_main_v10 (F := Ideal) x1 (ix1 n) = dv x1 n := by
  unfold dv
  rw [val_main_v10_apply, val_main_v9_apply, deg_apply, one8_apply, Ideal.hostUnary_rsqrt_def, Ideal.addf_def]

theorem gatherDV_apply (ei : EdgeArr.Idx → BitVec 32) (dvf : Fin 100000 → EReal) (DV : FVec Ideal S100000 .f32)
    (hDV : ∀ n, DV (ix1 n) = dvf n) (w : IVec S1250000x1 32) (r : Fin 2)
    (hw : ∀ e, w (ix2 e (0 : Fin 1)) = normW (ei (ix2 r e))) (e : Fin 1250000) :
    Host.gather gather_S100000_S1250000x1_S1250000_n_0_n_n_0_1_1 DV w (ix1 e) = dvf (rowOf (normW (ei (ix2 r e)))) := by
  refine (gather1_clamp_apply (by decide) gather_S100000_S1250000x1_S1250000_n_0_n_n_0_1_1 rfl rfl rfl rfl DV w e).trans ?_
  rw [← hDV]
  refine congrArg DV (congrArg ix1 (Fin.ext ?_))
  show min (w (ix2 e (0 : Fin 1))).toInt.toNat (100000 - 1) = min (normW (ei (ix2 r e))).toInt.toNat 99999
  rw [hw]

theorem gatherH_apply (ei : EdgeArr.Idx → BitVec 32) (H : Fin 100000 → Fin 64 → EReal) (Hm : FVec Ideal S100000x64 .f32)
    (hH : ∀ n j, Hm (ix2 n j) = H n j) (w : IVec S1250000x1 32) (r : Fin 2)
    (hw : ∀ e, w (ix2 e (0 : Fin 1)) = normW (ei (ix2 r e))) (e : Fin 1250000) (j : Fin 64) :
    Host.gather gather_S100000x64_S1250000x1_S1250000x64_1_0_n_n_0_1_164 Hm w (ix2 e j) = H (rowOf (normW (ei (ix2 r e)))) j := by
  refine (gather2_clamp_apply (by decide) gather_S100000x64_S1250000x1_S1250000x64_1_0_n_n_0_1_164 rfl rfl rfl rfl rfl Hm w e j).trans ?_
  rw [← hH]
  refine congrArg Hm (congrArg (fun q => ix2 q j) (Fin.ext ?_))
  show min (w (ix2 e (0 : Fin 1))).toInt.toNat (100000 - 1) = min (normW (ei (ix2 r e))).toInt.toNat 99999
  rw [hw]

def edgeTerm (DV : FVec Ideal S100000 .f32) (Hm : FVec Ideal S100000x64 .f32) (wS wD wS' : IVec S1250000x1 32) :
    FVec Ideal S1250000x64 .f32 :=
  mulf (broadcastInDim S1250000x64 ![0, 1] bcast_S1250000x1_S1250000x64_0_1
      (broadcastInDim S1250000x1 ![0] bcast_S1250000_S1250000x1_0
        (mulf (Host.gather gather_S100000_S1250000x1_S1250000_n_0_n_n_0_1_1 DV wS)
          (Host.gather gather_S100000_S1250000x1_S1250000_n_0_n_n_0_1_1 DV wD))))
    (Host.gather gather_S100000x64_S1250000x1_S1250000x64_1_0_n_n_0_1_164 Hm wS')

theorem edgeTerm_apply (ei : EdgeArr.Idx → BitVec 32) (dvf : Fin 100000 → EReal) (H : Fin 100000 → Fin 64 → EReal)
    (DV : FVec Ideal S100000 .f32) (Hm : FVec Ideal S100000x64 .f32) (wS wD wS' : IVec S1250000x1 32)
    (hDV : ∀ n, DV (ix1 n) = dvf n) (hH : ∀ n j, Hm (ix2 n j) = H n j)
    (hS : ∀ e, wS (ix2 e (0 : Fin 1)) = normW (ei (ix2 (0 : Fin 2) e)))
    (hD : ∀ e, wD (ix2 e (0 : Fin 1)) = normW (ei (ix2 (1 : Fin 2) e)))
    (hS' : ∀ e, wS' (ix2 e (0 : Fin 1)) = normW (ei (ix2 (0 : Fin 2) e))) (e : Fin 1250000) (j : Fin 64) :
    edgeTerm DV Hm wS wD wS' (ix2 e j) = dvf (srcRow ei e) * dvf (dstRow ei e) * H (srcRow ei e) j := by
  unfold edgeTerm
  rw [mulf_apply, cols_apply (by decide), col_apply (by decide), mulf_apply,
    gatherDV_apply ei dvf DV hDV wS 0 hS e, gatherDV_apply ei dvf DV hDV wD 1 hD e, gatherH_apply ei H Hm hH wS' 0 hS' e j]
  rfl

def layerTerm (DV : FVec Ideal S100000 .f32) (Hm : FVec Ideal S100000x64 .f32) (wS wD wS' wR : IVec S1250000x1 32)
    (Z B : FVec Ideal S100000x64 .f32) : FVec Ideal S100000x64 .f32 :=
  addf (addf (Host.scatterAdd scatter_S100000x64_S1250000x1_S1250000x64_1_0_0_1 Z wR (edgeTerm DV Hm wS wD wS'))
    (mulf (broadcastInDim S100000x64 ![0, 1] bcast_S100000x1_S100000x64_0_1
        (broadcastInDim S100000x1 ![0] bcast_S100000_S100000x1_0 (mulf DV DV))) Hm)) B

theorem layerTerm_apply (ei : EdgeArr.Idx → BitVec 32) (dvf : Fin 100000 → EReal) (H : Fin 100000 → Fin 64 → EReal)
    (b : Fin 64 → EReal) (DV : FVec Ideal S100000 .f32) (Hm : FVec Ideal S100000x64 .f32) (wS wD wS' wR : IVec S1250000x1 32)
    (Z B : FVec Ideal S100000x64 .f32)
    (hDV : ∀ n, DV (ix1 n) = dvf n) (hH : ∀ n j, Hm (ix2 n j) = H n j)
    (hS : ∀ e, wS (ix2 e (0 : Fin 1)) = normW (ei (ix2 (0 : Fin 2) e)))
    (hD : ∀ e, wD (ix2 e (0 : Fin 1)) = normW (ei (ix2 (1 : Fin 2) e)))
    (hS' : ∀ e, wS' (ix2 e (0 : Fin 1)) = normW (ei (ix2 (0 : Fin 2) e)))
    (hR : ∀ e, wR (ix2 e (0 : Fin 1)) = ei (ix2 (1 : Fin 2) e))
    (hZ : ∀ i, Z i = (0 : EReal)) (hB : ∀ n j, B (ix2 n j) = b j) (n : Fin 100000) (j : Fin 64) :
    layerTerm DV Hm wS wD wS' wR Z B (ix2 n j) = layer dvf ei H b n j := by
  unfold layerTerm layer
  rw [addf_apply, addf_apply, mulf_apply, hB, hH, cols_apply (by decide), col_apply (by decide), mulf_apply, hDV,
    scatterAdd2_read scatter_S100000x64_S1250000x1_S1250000x64_1_0_0_1 rfl rfl rfl rfl Z wR (edgeTerm DV Hm wS wD wS') n j
      (0 : EReal) (fun e => endsAt ei e n) (fun e => dvf (srcRow ei e) * dvf (dstRow ei e) * H (srcRow ei e) j)
      (hZ _) (fun e => by rw [hR e]; exact Iff.rfl)
      (fun e => edgeTerm_apply ei dvf H DV Hm wS wD wS' hDV hH hS hD hS' e j)]

theorem feat1_apply (n : Fin 100000) (j : Fin 64) :
    val_main_v11 (F := Ideal) x0 x3 (ix2 n j) = feat x0 x3 n j := by
  unfold feat
  rw [val_main_v11_apply]
  refine Finset.sum_congr rfl fun k _ => ?_
  have hl : lidx_main_v11 (ix2 n j) k = ix2 n k := funext fun a => by match a with | ⟨0, _⟩ => rfl | ⟨1, _⟩ => rfl
  have hr : ridx_main_v11 (ix2 n j) k = ix2 k j := funext fun a => by match a with | ⟨0, _⟩ => rfl | ⟨1, _⟩ => rfl
  rw [hl, hr]

theorem zero37_apply (i : S100000x64.Idx) : val_main_v37 (F := Ideal) i = (0 : EReal) := by
  rw [val_main_v37_apply, val_main_cst_7_apply, Ideal.ofBits_def, Ideal.ofBits_zero_f32]

theorem bias46_apply (n : Fin 100000) (j : Fin 64) : val_main_v46 (F := Ideal) x4 (ix2 n j) = x4 (ix1 j) := by
  unfold val_main_v46 val_main_v45
  rw [rows_apply (by decide), row_apply (by decide)]

theorem layer1_apply (n : Fin 100000) (j : Fin 64) :
    val_main_v47 (F := Ideal) x0 x1 x3 x4 (ix2 n j) = r1 x0 x1 x3 x4 n j := by
  show layerTerm (val_main_v10 (F := Ideal) x1) (val_main_v11 (F := Ideal) x0 x3) (normCol (val_main_v1 (F := Ideal) x1))
    (normCol (val_main_v3 (F := Ideal) x1)) (normCol (val_main_v1 (F := Ideal) x1))
    (broadcastInDim S1250000x1 ![0] bcast_S1250000_S1250000x1_0 (val_main_v3 (F := Ideal) x1))
    (val_main_v37 (F := Ideal)) (val_main_v46 (F := Ideal) x4) (ix2 n j) = _
  exact layerTerm_apply x1 (dv x1) (feat x0 x3) (fun j => x4 (ix1 j)) _ _ _ _ _ _ _ _
    (dv_apply x1) (feat1_apply x0 x3)
    (fun e => (normCol_apply _ e).trans (congrArg normW (start_word x1 e)))
    (fun e => (normCol_apply _ e).trans (congrArg normW (end_word x1 e)))
    (fun e => (normCol_apply _ e).trans (congrArg normW (start_word x1 e)))
    (endCol_apply x1) zero37_apply (bias46_apply x4) n j

theorem feat2_apply (n : Fin 100000) (j : Fin 64) :
    val_main_v49 (F := Ideal) x0 x1 x3 x4 x5 (ix2 n j) = featNext (r1 x0 x1 x3 x4) x5 n j := by
  unfold featNext
  rw [val_main_v49_apply]
  refine Finset.sum_congr rfl fun k _ => ?_
  have hl : lidx_main_v49 (ix2 n j) k = ix2 n k := funext fun a => by match a with | ⟨0, _⟩ => rfl | ⟨1, _⟩ => rfl
  have hr : ridx_main_v49 (ix2 n j) k = ix2 k j := funext fun a => by match a with | ⟨0, _⟩ => rfl | ⟨1, _⟩ => rfl
  rw [hl, hr, val_main_v48_apply, val_main_call0_v0_apply, val_main_call0_cst_apply, layer1_apply,
    Ideal.maximumf_def, Ideal.ofBits_def, Ideal.ofBits_zero_f32]

theorem zero75_apply (i : S100000x64.Idx) : val_main_v75 (F := Ideal) i = (0 : EReal) := by
  rw [val_main_v75_apply, val_main_cst_14_apply, Ideal.ofBits_def, Ideal.ofBits_zero_f32]

theorem bias84_apply (n : Fin 100000) (j : Fin 64) : val_main_v84 (F := Ideal) x6 (ix2 n j) = x6 (ix1 j) := by
  unfold val_main_v84 val_main_v83
  rw [rows_apply (by decide), row_apply (by decide)]

theorem layer2_apply (n : Fin 100000) (j : Fin 64) :
    val_main_v85 (F := Ideal) x0 x1 x3 x4 x5 x6 (ix2 n j) = r2 x0 x1 x3 x4 x5 x6 n j := by
  show layerTerm (val_main_v10 (F := Ideal) x1) (val_main_v49 (F := Ideal) x0 x1 x3 x4 x5) (normCol (val_main_v1 (F := Ideal) x1))
    (normCol (val_main_v3 (F := Ideal) x1)) (normCol (val_main_v1 (F := Ideal) x1))
    (broadcastInDim S1250000x1 ![0] bcast_S1250000_S1250000x1_0 (val_main_v3 (F := Ideal) x1))
    (val_main_v75 (F := Ideal)) (val_main_v84 (F := Ideal) x6) (ix2 n j) = _
  exact layerTerm_apply x1 (dv x1) (featNext (r1 x0 x1 x3 x4) x5) (fun j => x6 (ix1 j)) _ _ _ _ _ _ _ _
    (dv_apply x1) (feat2_apply x0 x1 x3 x4 x5)
    (fun e => (normCol_apply _ e).trans (congrArg normW (start_word x1 e)))
    (fun e => (normCol_apply _ e).trans (congrArg normW (end_word x1 e)))
    (fun e => (normCol_apply _ e).trans (congrArg normW (start_word x1 e)))
    (endCol_apply x1) zero75_apply (bias84_apply x6) n j

theorem feat3_apply (n : Fin 100000) (j : Fin 64) :
    val_main_v87 (F := Ideal) x0 x1 x3 x4 x5 x6 x7 (ix2 n j) = featNext (r2 x0 x1 x3 x4 x5 x6) x7 n j := by
  unfold featNext
  rw [val_main_v87_apply]
  refine Finset.sum_congr rfl fun k _ => ?_
  have hl : lidx_main_v87 (ix2 n j) k = ix2 n k := funext fun a => by match a with | ⟨0, _⟩ => rfl | ⟨1, _⟩ => rfl
  have hr : ridx_main_v87 (ix2 n j) k = ix2 k j := funext fun a => by match a with | ⟨0, _⟩ => rfl | ⟨1, _⟩ => rfl
  rw [hl, hr, val_main_v86_apply, val_main_call1_v0_apply, val_main_call1_cst_apply, layer2_apply,
    Ideal.maximumf_def, Ideal.ofBits_def, Ideal.ofBits_zero_f32]

theorem zero113_apply (i : S100000x64.Idx) : val_main_v113 (F := Ideal) i = (0 : EReal) := by
  rw [val_main_v113_apply, val_main_cst_21_apply, Ideal.ofBits_def, Ideal.ofBits_zero_f32]

theorem bias122_apply (n : Fin 100000) (j : Fin 64) : val_main_v122 (F := Ideal) x8 (ix2 n j) = x8 (ix1 j) := by
  unfold val_main_v122 val_main_v121
  rw [rows_apply (by decide), row_apply (by decide)]

theorem layer3_apply (n : Fin 100000) (j : Fin 64) :
    val_main_v123 (F := Ideal) x0 x1 x3 x4 x5 x6 x7 x8 (ix2 n j) = r3 x0 x1 x3 x4 x5 x6 x7 x8 n j := by
  show layerTerm (val_main_v10 (F := Ideal) x1) (val_main_v87 (F := Ideal) x0 x1 x3 x4 x5 x6 x7) (normCol (val_main_v1 (F := Ideal) x1))
    (normCol (val_main_v3 (F := Ideal) x1)) (normCol (val_main_v1 (F := Ideal) x1))
    (broadcastInDim S1250000x1 ![0] bcast_S1250000_S1250000x1_0 (val_main_v3 (F := Ideal) x1))
    (val_main_v113 (F := Ideal)) (val_main_v122 (F := Ideal) x8) (ix2 n j) = _
  exact layerTerm_apply x1 (dv x1) (featNext (r2 x0 x1 x3 x4 x5 x6) x7) (fun j => x8 (ix1 j)) _ _ _ _ _ _ _ _
    (dv_apply x1) (feat3_apply x0 x1 x3 x4 x5 x6 x7)
    (fun e => (normCol_apply _ e).trans (congrArg normW (start_word x1 e)))
    (fun e => (normCol_apply _ e).trans (congrArg normW (end_word x1 e)))
    (fun e => (normCol_apply _ e).trans (congrArg normW (start_word x1 e)))
    (endCol_apply x1) zero113_apply (bias122_apply x8) n j

theorem zero124_apply (i : S256x64.Idx) : val_main_v124 (F := Ideal) i = (0 : EReal) := by
  rw [val_main_v124_apply, val_main_cst_22_apply, Ideal.ofBits_def, Ideal.ofBits_zero_f32]

theorem zero128_apply (i : S256.Idx) : val_main_v128 (F := Ideal) i = (0 : EReal) := by
  rw [val_main_v128_apply, val_main_cst_24_apply, Ideal.ofBits_def, Ideal.ofBits_zero_f32]

theorem one127_apply (i : S100000.Idx) : val_main_v127 (F := Ideal) i = (1 : EReal) := by
  rw [val_main_v127_apply, val_main_cst_23_apply, Ideal.ofBits_def, one_f32]

theorem batchCol125_apply (n : Fin 100000) : val_main_v125 (F := Ideal) x2 (ix2 n (0 : Fin 1)) = x2 (ix1 n) := by
  unfold val_main_v125
  rw [col_apply (by decide)]

theorem batchCol129_apply (n : Fin 100000) : val_main_v129 (F := Ideal) x2 (ix2 n (0 : Fin 1)) = x2 (ix1 n) := by
  unfold val_main_v129
  rw [col_apply (by decide)]

theorem sums_apply (g : Fin 256) (j : Fin 64) :
    val_main_v126 (F := Ideal) x0 x1 x2 x3 x4 x5 x6 x7 x8 (ix2 g j) = sumsR x2 (r3 x0 x1 x3 x4 x5 x6 x7 x8) g j := by
  unfold sumsR val_main_v126
  rw [scatterAdd2_read scatter_S256x64_S100000x1_S100000x64_1_0_0_1 rfl rfl rfl rfl
    (val_main_v124 (F := Ideal)) (val_main_v125 (F := Ideal) x2) (val_main_v123 (F := Ideal) x0 x1 x3 x4 x5 x6 x7 x8) g j
    (0 : EReal) (fun n => (x2 (ix1 n)).toInt = ((g.val : ℕ) : Int)) (fun n => r3 x0 x1 x3 x4 x5 x6 x7 x8 n j)
    (zero124_apply _) (fun n => Iff.of_eq (by rw [batchCol125_apply x2 n]))
    (fun n => layer3_apply x0 x1 x3 x4 x5 x6 x7 x8 n j)]

theorem cnt_apply (g : Fin 256) : val_main_v130 (F := Ideal) x2 (ix1 g) = cntR x2 g := by
  unfold cntR val_main_v130
  rw [scatterAdd1_read scatter_S256_S100000x1_S100000_n_0_0_1 rfl rfl rfl rfl
    (val_main_v128 (F := Ideal)) (val_main_v129 (F := Ideal) x2) (val_main_v127 (F := Ideal)) g
    (0 : EReal) (fun n => (x2 (ix1 n)).toInt = ((g.val : ℕ) : Int)) (fun _ => (1 : EReal))
    (zero128_apply _) (fun n => Iff.of_eq (by rw [batchCol129_apply x2 n])) (fun n => one127_apply _)]

def refOut (g : Fin 256) (c : Fin 2) : EReal :=
  (∑ j : Fin 64, Ideal.div (sumsR x2 (r3 x0 x1 x3 x4 x5 x6 x7 x8) g j) (max (cntR x2 g) 1) * x9 (ix2 j c)) + x10 (ix1 c)

theorem clampCnt_apply (g : Fin 256) (j : Fin 64) : val_main_v134 (F := Ideal) x2 (ix2 g j) = max (cntR x2 g) 1 := by
  unfold val_main_v134 val_main_v133
  rw [cols_apply (by decide), col_apply (by decide), val_main_v132_apply, cnt_apply, val_main_v131_apply, val_main_cst_25_apply,
    Ideal.maximumf_def, Ideal.ofBits_def, one_f32]

theorem mean_apply (g : Fin 256) (j : Fin 64) :
    val_main_v135 (F := Ideal) x0 x1 x2 x3 x4 x5 x6 x7 x8 (ix2 g j)
      = Ideal.div (sumsR x2 (r3 x0 x1 x3 x4 x5 x6 x7 x8) g j) (max (cntR x2 g) 1) := by
  rw [val_main_v135_apply, sums_apply, clampCnt_apply, Ideal.hostDivf_def]

theorem bias138_apply (g : Fin 256) (c : Fin 2) : val_main_v138 (F := Ideal) x10 (ix2 g c) = x10 (ix1 c) := by
  unfold val_main_v138 val_main_v137
  rw [rows_apply (by decide), row_apply (by decide)]

theorem ref_result (g : Fin 256) (c : Fin 2) :
    val_main_v139 (F := Ideal) x0 x1 x2 x3 x4 x5 x6 x7 x8 x9 x10 (ix2 g c) = refOut x0 x1 x2 x3 x4 x5 x6 x7 x8 x9 x10 g c := by
  have hl : ∀ k : Fin 64, lidx_main_v136 (ix2 g c) k = ix2 g k := fun k => funext fun a => by
    match a with | ⟨0, _⟩ => rfl | ⟨1, _⟩ => rfl
  have hr : ∀ k : Fin 64, ridx_main_v136 (ix2 g c) k = ix2 k c := fun k => funext fun a => by
    match a with | ⟨0, _⟩ => rfl | ⟨1, _⟩ => rfl
  unfold refOut
  rw [val_main_v139_apply, val_main_v136_apply, Ideal.addf_def, bias138_apply]
  simp only [hl, hr, mean_apply]

end Cert.ReferenceIdeal.RefValue

end
-- ==== Proof.Algebraic.lean ====
import proofs.«428185_j66005057405150_3_alg».proof.Defs
import proofs.«428185_j66005057405150_3_alg».proof.Proof.Gen.Kernel
import proofs.«428185_j66005057405150_3_alg».proof.Proof.Gen.Kernel.Skeleton
import proofs.«428185_j66005057405150_3_alg».proof.Proof.Gen.Kernel.Launch
import proofs.«428185_j66005057405150_3_alg».proof.Proof.Gen.Kernel.Regions
import proofs.«428185_j66005057405150_3_alg».proof.Proof.Gen.Kernel.Points
import proofs.«428185_j66005057405150_3_alg».proof.Proof.Gen.KernelIdeal
import proofs.«428185_j66005057405150_3_alg».proof.Proof.Gen.KernelIdeal.Skeleton
import proofs.«428185_j66005057405150_3_alg».proof.Proof.Gen.KernelIdeal.Launch
import proofs.«428185_j66005057405150_3_alg».proof.Proof.Gen.KernelIdeal.Regions
import proofs.«428185_j66005057405150_3_alg».proof.Proof.Gen.KernelIdeal.Points
import proofs.«428185_j66005057405150_3_alg».proof.Proof.Gen.ReferenceIdeal
import proofs.«428185_j66005057405150_3_alg».proof.Proof.Gen.Pre_finite_inputs
import proofs.«428185_j66005057405150_3_alg».proof.Proof.Gen.ReferenceIdeal.Run
import proofs.«428185_j66005057405150_3_alg».proof.Proof.Gen.ReferenceIdeal.Read
import proofs.«428185_j66005057405150_3_alg».proof.Proof.Run
import proofs.«428185_j66005057405150_3_alg».proof.Proof.RefValue

noncomputable section

namespace Cert.Proof.Alg

open Idealize.ShloMosaic Idealize.ShloMosaic.TcCoe Idealize.SL.Sem Idealize.ShloMosaic.ValueIdx

def KernelValue : Prop :=
  ∀ (m : (ℓ : Loc Cert.KernelIdeal.nD Cert.KernelIdeal.τ Cert.KernelIdeal.sig) → Buf (Elt Ideal) ℓ)
    (c : Dev Cert.KernelIdeal.nD) (g : Fin 256) (cc : Fin 2),
    (Cert.KernelIdeal.Gen.V9 (F := Ideal) m (Cert.KernelIdeal.Rg.outsF m) c Cert.KernelIdeal.main_v57 :
        (⟨Cert.KernelIdeal.S256x2, .f32⟩ : BufTy).Contents (Elt Ideal)) (ix2 g cc)
      = Cert.ReferenceIdeal.RefValue.refOut
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10)) g cc

theorem algebraic (hk : KernelValue) : Cert.algebraic_KernelIdeal_ReferenceIdeal := by
  intro m ρ m' ρ' _ hagree
  refine ⟨fun c => Cert.KernelIdeal.Gen.V9 (F := Ideal) m (Cert.KernelIdeal.Rg.outsF m) c Cert.KernelIdeal.main_v57,
    Cert.KernelIdeal.Rg.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v139_eq m' c, h0, h1, h2, h3, h4, h5, h6, h7, h8, h9, h10]
  refine funext fun (i : (⟨2, ![256, 2]⟩ : Shape).Idx) => ?_
  obtain ⟨g, cc, rfl⟩ : ∃ (g : Fin 256) (cc : Fin 2), i = ix2 g cc := ⟨i 0, i 1, eq_ix2 i⟩
  rw [Cert.ReferenceIdeal.RefValue.ref_result]
  exact (hk m c g cc).symm

end Cert.Proof.Alg

end
-- ==== Proof.HostK.lean ====
import proofs.«428185_j66005057405150_3_alg».proof.Proof.Gen.KernelIdeal.Regions
import Idealize.ShloMosaic.Lib.StableHlo.Run

noncomputable section

namespace Cert.KernelIdeal.HostK

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

def dstCol (ei : (⟨S2x1250000, .i32⟩ : BufTy).Contents (Elt F)) : (⟨S1250000x1, .i32⟩ : BufTy).Contents (Elt F) :=
  broadcastInDim S1250000x1 ![0] bcast_S1250000_S1250000x1_0
    (shapeCast S1250000 (extractStridedSlice S1x1250000 ![1, 0] ei slices_S2x1250000_S1x1250000_1_0) shapeCasts_S1x1250000_S1250000)

def dinvCol (ei : (⟨S2x1250000, .i32⟩ : BufTy).Contents (Elt F)) : (⟨S100000x1, .f32⟩ : BufTy).Contents (Elt F) :=
  shapeCast S100000x1
    (Host.rsqrt (addf
      (Host.scatterAdd scatter_S100000_S1250000x1_S1250000_n_0_0_1
        (broadcastInDim S100000 ![] bcast_S_S100000 (constant (F := F) S_ .f32 0x00000000#32))
        (dstCol ei)
        (broadcastInDim S1250000 ![] bcast_S_S1250000 (constant (F := F) S_ .f32 0x3F800000#32)))
      (broadcastInDim S100000 ![] bcast_S_S100000 (constant (F := F) S_ .f32 0x3F800000#32))))
    shapeCasts_S100000_S100000x1

theorem V1_dinv (c : Dev nD) :
    (V1 m c main_v11 : (⟨S100000x1, .f32⟩ : BufTy).Contents (Elt F)) = dinvCol (m ((c : Thread nD τ).loc main_arg1)) := by
  show StableHlo.after hostOps0 (fun b => m (c, b)) (Proc.devRef .tc main_v11) = _
  after_results
  rfl

def normCol (v : (⟨S1250000, .i32⟩ : BufTy).Contents (Elt F)) : (⟨S1250000x1, .i32⟩ : BufTy).Contents (Elt F) :=
  broadcastInDim S1250000x1 ![0] bcast_S1250000_S1250000x1_0
    (select (cmpi .slt v (broadcastInDim S1250000 ![] bcast_S_S1250000 (constantI S_ 32 0#32)))
      (addi v (broadcastInDim S1250000 ![] bcast_S_S1250000 (constantI S_ 32 100000#32))) v)

def aggOf (h : (⟨S100000x64, .f32⟩ : BufTy).Contents (Elt F)) (src dst : (⟨S1250000, .i32⟩ : BufTy).Contents (Elt F)) :
    (⟨S100000x64, .f32⟩ : BufTy).Contents (Elt F) :=
  Host.scatterAdd scatter_S100000x64_S1250000x1_S1250000x64_1_0_0_1
    (broadcastInDim S100000x64 ![] bcast_S_S100000x64 (constant (F := F) S_ .f32 0x00000000#32))
    (broadcastInDim S1250000x1 ![0] bcast_S1250000_S1250000x1_0 dst)
    (Host.gather gather_S100000x64_S1250000x1_S1250000x64_1_0_n_n_0_1_164 h (normCol src))

theorem after1_agg (W : Valuation τ sig (Elt F)) :
    (StableHlo.after hostOps1 W (Proc.devRef .tc main_v22) : (⟨S100000x64, .f32⟩ : BufTy).Contents (Elt F))
      = aggOf (W (Proc.devRef .tc main_v12)) (W (Proc.devRef .tc main_v1)) (W (Proc.devRef .tc main_v3)) := by
  after_results
  rfl

theorem after1_bias (W : Valuation τ sig (Elt F)) :
    (StableHlo.after hostOps1 W (Proc.devRef .tc main_v23) : (⟨S1x64, .f32⟩ : BufTy).Contents (Elt F))
      = shapeCast S1x64 (W (Proc.devRef .tc main_arg4)) shapeCasts_S64_S1x64 := by
  after_results
  rfl

theorem after2_agg (W : Valuation τ sig (Elt F)) :
    (StableHlo.after hostOps2 W (Proc.devRef .tc main_v34) : (⟨S100000x64, .f32⟩ : BufTy).Contents (Elt F))
      = aggOf (W (Proc.devRef .tc main_v24)) (W (Proc.devRef .tc main_v1)) (W (Proc.devRef .tc main_v3)) := by
  after_results
  rfl

theorem after2_bias (W : Valuation τ sig (Elt F)) :
    (StableHlo.after hostOps2 W (Proc.devRef .tc main_v35) : (⟨S1x64, .f32⟩ : BufTy).Contents (Elt F))
      = shapeCast S1x64 (W (Proc.devRef .tc main_arg6)) shapeCasts_S64_S1x64 := by
  after_results
  rfl

set_option maxHeartbeats 1000000 in

theorem after3_agg (W : Valuation τ sig (Elt F)) :
    (StableHlo.after hostOps3 W (Proc.devRef .tc main_v46) : (⟨S100000x64, .f32⟩ : BufTy).Contents (Elt F))
      = aggOf (W (Proc.devRef .tc main_v36)) (W (Proc.devRef .tc main_v1)) (W (Proc.devRef .tc main_v3)) := by
  after_results
  rfl

set_option maxHeartbeats 1000000 in
theorem after3_bias (W : Valuation τ sig (Elt F)) :
    (StableHlo.after hostOps3 W (Proc.devRef .tc main_v48) : (⟨S1x64, .f32⟩ : BufTy).Contents (Elt F))
      = shapeCast S1x64 (W (Proc.devRef .tc main_arg8)) shapeCasts_S64_S1x64 := by
  after_results
  rfl

set_option maxHeartbeats 1000000 in
theorem after3_batch (W : Valuation τ sig (Elt F)) :
    (StableHlo.after hostOps3 W (Proc.devRef .tc main_v47) : (⟨S100000x1, .i32⟩ : BufTy).Contents (Elt F))
      = shapeCast S100000x1 (W (Proc.devRef .tc main_arg2)) shapeCasts_S100000_S100000x1 := by
  after_results
  rfl

def tailOf (s : (⟨S256x64, .f32⟩ : BufTy).Contents (Elt F)) (n : (⟨S256x1, .f32⟩ : BufTy).Contents (Elt F))
    (wl : (⟨S64x2, .f32⟩ : BufTy).Contents (Elt F)) (bl : (⟨S2, .f32⟩ : BufTy).Contents (Elt F)) :
    (⟨S256x2, .f32⟩ : BufTy).Contents (Elt F) :=
  addf
    (Host.dotGeneral dot_S256x64_S64x2_S256x2_1_0_0_1_n_n none
      (Host.divf s (broadcastInDim S256x64 ![0, 1] bcast_S256x1_S256x64_0_1
        (maximumf n (broadcastInDim S256x1 ![] bcast_S_S256x1 (constant (F := F) S_ .f32 0x3F800000#32)))))
      wl)
    (broadcastInDim S256x2 ![0, 1] bcast_S1x2_S256x2_0_1 (broadcastInDim S1x2 ![1] bcast_S2_S1x2_1 bl))

theorem after4_result (W : Valuation τ sig (Elt F)) :
    (StableHlo.after hostOps4 W (Proc.devRef .tc main_v57) : (⟨S256x2, .f32⟩ : BufTy).Contents (Elt F))
      = tailOf (W (Proc.devRef .tc main_v49_0)) (W (Proc.devRef .tc main_v49_1))
          (W (Proc.devRef .tc main_arg9)) (W (Proc.devRef .tc main_arg10)) := by
  after_results
  rfl

end Cert.KernelIdeal.HostK

end
-- ==== Proof.KVals.lean ====
import proofs.«428185_j66005057405150_3_alg».proof.Proof.Fam
import proofs.«428185_j66005057405150_3_alg».proof.Proof.HostK

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.HostK

variable {F : FTy → Type} [FloatOps F]

local notation "𝕄" => MT nD τ sig Unit (Elt F) ℕ (UR sig nD τ) ℕ

variable (m : (ℓ : Loc nD τ sig) → Buf (Elt F) ℓ)

theorem V2_v12 (c : Dev nD) : V2 m (outsF m) c main_v12 = o2 m c := by
  show Function.update (V1 m c) main_v12 (outsF m 2 main_v12 c) main_v12 = _
  rw [Function.update_self]; exact outs_2 m (o8a m) (o8b m) c
theorem V4_v24 (c : Dev nD) : V4 m (outsF m) c main_v24 = o4 m c := by
  show Function.update (V3 m (outsF m) c) main_v24 (outsF m 4 main_v24 c) main_v24 = _
  rw [Function.update_self]; exact outs_4 m (o8a m) (o8b m) c
theorem V6_v36 (c : Dev nD) : V6 m (outsF m) c main_v36 = o6 m c := by
  show Function.update (V5 m (outsF m) c) main_v36 (outsF m 6 main_v36 c) main_v36 = _
  rw [Function.update_self]; exact outs_6 m (o8a m) (o8b m) c
theorem V8_v49_0 (c : Dev nD) : V8 m (outsF m) c main_v49_0 = o8a m c := by
  show Function.update (Function.update (V7 m (outsF m) c) main_v49_0 (outsF m 8 main_v49_0 c)) main_v49_1 (outsF m 8 main_v49_1 c) main_v49_0 = _
  rw [Function.update_of_ne (StableHlo.devRef_ne_of_ne (by decide)), Function.update_self]; exact outs_8a m (o8a m) (o8b m) c
theorem V8_v49_1 (c : Dev nD) : V8 m (outsF m) c main_v49_1 = o8b m c := by
  show Function.update (Function.update (V7 m (outsF m) c) main_v49_0 (outsF m 8 main_v49_0 c)) main_v49_1 (outsF m 8 main_v49_1 c) main_v49_1 = _
  rw [Function.update_self]; exact outs_8b m (o8a m) (o8b m) c

theorem V3_keep (c : Dev nD) (r : Ref sig .tc) (h2 : r ∉ ([main_v12] : List (Ref sig .tc)) := by decide) (h3 : r ∉ hostOps1_W := by decide) :
    V3 m (outsF m) c r = V1 m c r := (V3_of m _ c r h3).trans (V2_of m _ c r h2)
theorem V5_keep (c : Dev nD) (r : Ref sig .tc) (h2 : r ∉ ([main_v12] : List (Ref sig .tc)) := by decide) (h3 : r ∉ hostOps1_W := by decide)
    (h4 : r ∉ ([main_v24] : List (Ref sig .tc)) := by decide) (h5 : r ∉ hostOps2_W := by decide) :
    V5 m (outsF m) c r = V1 m c r := (V5_of m _ c r h5).trans <| (V4_of m _ c r h4).trans (V3_keep m c r h2 h3)
theorem V7_keep (c : Dev nD) (r : Ref sig .tc) (h2 : r ∉ ([main_v12] : List (Ref sig .tc)) := by decide) (h3 : r ∉ hostOps1_W := by decide)
    (h4 : r ∉ ([main_v24] : List (Ref sig .tc)) := by decide) (h5 : r ∉ hostOps2_W := by decide)
    (h6 : r ∉ ([main_v36] : List (Ref sig .tc)) := by decide) (h7 : r ∉ hostOps3_W := by decide) :
    V7 m (outsF m) c r = V1 m c r := (V7_of m _ c r h7).trans <| (V6_of m _ c r h6).trans (V5_keep m c r h2 h3 h4 h5)
theorem V1_arg (c : Dev nD) (r : Ref sig .tc) (h : r ∉ hostOps0_W := by decide) : V1 m c r = m ((c : Thread nD τ).loc r) := V1_of m c r h
theorem V3_v11 (c : Dev nD) : V3 m (outsF m) c main_v11 = V1 m c main_v11 := V3_keep m c _
theorem V5_v11 (c : Dev nD) : V5 m (outsF m) c main_v11 = V1 m c main_v11 := V5_keep m c _
theorem V7_v11 (c : Dev nD) : V7 m (outsF m) c main_v11 = V1 m c main_v11 := V7_keep m c _
theorem V2_v1 (c : Dev nD) : V2 m (outsF m) c main_v1 = V1 m c main_v1 := V2_of m _ c _ (by decide)
theorem V2_v3 (c : Dev nD) : V2 m (outsF m) c main_v3 = V1 m c main_v3 := V2_of m _ c _ (by decide)
theorem V4_v1 (c : Dev nD) : V4 m (outsF m) c main_v1 = V1 m c main_v1 := (V4_of m _ c _ (by decide)).trans (V3_keep m c _)
theorem V4_v3 (c : Dev nD) : V4 m (outsF m) c main_v3 = V1 m c main_v3 := (V4_of m _ c _ (by decide)).trans (V3_keep m c _)
theorem V6_v1 (c : Dev nD) : V6 m (outsF m) c main_v1 = V1 m c main_v1 := (V6_of m _ c _ (by decide)).trans (V5_keep m c _)
theorem V6_v3 (c : Dev nD) : V6 m (outsF m) c main_v3 = V1 m c main_v3 := (V6_of m _ c _ (by decide)).trans (V5_keep m c _)
theorem V2_arg4 (c : Dev nD) : V2 m (outsF m) c main_arg4 = m ((c : Thread nD τ).loc main_arg4) :=
  (V2_of m _ c _ (by decide)).trans (V1_arg m c _)
theorem V4_arg6 (c : Dev nD) : V4 m (outsF m) c main_arg6 = m ((c : Thread nD τ).loc main_arg6) :=
  (V4_of m _ c _ (by decide)).trans <| (V3_keep m c _).trans (V1_arg m c _)
theorem V6_arg8 (c : Dev nD) : V6 m (outsF m) c main_arg8 = m ((c : Thread nD τ).loc main_arg8) :=
  (V6_of m _ c _ (by decide)).trans <| (V5_keep m c _).trans (V1_arg m c _)
theorem V6_arg2 (c : Dev nD) : V6 m (outsF m) c main_arg2 = m ((c : Thread nD τ).loc main_arg2) :=
  (V6_of m _ c _ (by decide)).trans <| (V5_keep m c _).trans (V1_arg m c _)
theorem V3_arg5 (c : Dev nD) : V3 m (outsF m) c main_arg5 = m ((c : Thread nD τ).loc main_arg5) :=
  (V3_keep m c _).trans (V1_arg m c _)
theorem V5_arg7 (c : Dev nD) : V5 m (outsF m) c main_arg7 = m ((c : Thread nD τ).loc main_arg7) :=
  (V5_keep m c _).trans (V1_arg m c _)
theorem V8_arg9 (c : Dev nD) : V8 m (outsF m) c main_arg9 = m ((c : Thread nD τ).loc main_arg9) :=
  (V8_of m _ c _ (by decide)).trans <| (V7_keep m c _).trans (V1_arg m c _)
theorem V8_arg10 (c : Dev nD) : V8 m (outsF m) c main_arg10 = m ((c : Thread nD τ).loc main_arg10) :=
  (V8_of m _ c _ (by decide)).trans <| (V7_keep m c _).trans (V1_arg m c _)

theorem V3_v12 (c : Dev nD) : V3 m (outsF m) c main_v12 = o2 m c :=
  (V3_of m (outsF m) c main_v12 (by decide)).trans (V2_v12 m c)
theorem V3_v22 (c : Dev nD) :
    (V3 m (outsF m) c main_v22 : (⟨S100000x64, .f32⟩ : BufTy).Contents (Elt F)) = aggOf (o2 m c) (V1 m c main_v1) (V1 m c main_v3) := by
  show StableHlo.after hostOps1 (V2 m (outsF m) c) (Proc.devRef .tc main_v22) = _
  rw [after1_agg, show V2 m (outsF m) c (Proc.devRef .tc main_v12) = o2 m c from V2_v12 m c,
    show V2 m (outsF m) c (Proc.devRef .tc main_v1) = V1 m c main_v1 from V2_v1 m c,
    show V2 m (outsF m) c (Proc.devRef .tc main_v3) = V1 m c main_v3 from V2_v3 m c]
theorem V3_v23 (c : Dev nD) :
    (V3 m (outsF m) c main_v23 : (⟨S1x64, .f32⟩ : BufTy).Contents (Elt F)) = shapeCast S1x64 (m ((c : Thread nD τ).loc main_arg4)) shapeCasts_S64_S1x64 := by
  show StableHlo.after hostOps1 (V2 m (outsF m) c) (Proc.devRef .tc main_v23) = _
  rw [after1_bias, show V2 m (outsF m) c (Proc.devRef .tc main_arg4) = m ((c : Thread nD τ).loc main_arg4) from V2_arg4 m c]

theorem V5_v24 (c : Dev nD) : V5 m (outsF m) c main_v24 = o4 m c :=
  (V5_of m (outsF m) c main_v24 (by decide)).trans (V4_v24 m c)
theorem V5_v34 (c : Dev nD) :
    (V5 m (outsF m) c main_v34 : (⟨S100000x64, .f32⟩ : BufTy).Contents (Elt F)) = aggOf (o4 m c) (V1 m c main_v1) (V1 m c main_v3) := by
  show StableHlo.after hostOps2 (V4 m (outsF m) c) (Proc.devRef .tc main_v34) = _
  rw [after2_agg, show V4 m (outsF m) c (Proc.devRef .tc main_v24) = o4 m c from V4_v24 m c,
    show V4 m (outsF m) c (Proc.devRef .tc main_v1) = V1 m c main_v1 from V4_v1 m c,
    show V4 m (outsF m) c (Proc.devRef .tc main_v3) = V1 m c main_v3 from V4_v3 m c]
theorem V5_v35 (c : Dev nD) :
    (V5 m (outsF m) c main_v35 : (⟨S1x64, .f32⟩ : BufTy).Contents (Elt F)) = shapeCast S1x64 (m ((c : Thread nD τ).loc main_arg6)) shapeCasts_S64_S1x64 := by
  show StableHlo.after hostOps2 (V4 m (outsF m) c) (Proc.devRef .tc main_v35) = _
  rw [after2_bias, show V4 m (outsF m) c (Proc.devRef .tc main_arg6) = m ((c : Thread nD τ).loc main_arg6) from V4_arg6 m c]

theorem V7_v36 (c : Dev nD) : V7 m (outsF m) c main_v36 = o6 m c :=
  (V7_of m (outsF m) c main_v36 (by decide)).trans (V6_v36 m c)
theorem V7_v46 (c : Dev nD) :
    (V7 m (outsF m) c main_v46 : (⟨S100000x64, .f32⟩ : BufTy).Contents (Elt F)) = aggOf (o6 m c) (V1 m c main_v1) (V1 m c main_v3) := by
  show StableHlo.after hostOps3 (V6 m (outsF m) c) (Proc.devRef .tc main_v46) = _
  rw [after3_agg, show V6 m (outsF m) c (Proc.devRef .tc main_v36) = o6 m c from V6_v36 m c,
    show V6 m (outsF m) c (Proc.devRef .tc main_v1) = V1 m c main_v1 from V6_v1 m c,
    show V6 m (outsF m) c (Proc.devRef .tc main_v3) = V1 m c main_v3 from V6_v3 m c]
theorem V7_v48 (c : Dev nD) :
    (V7 m (outsF m) c main_v48 : (⟨S1x64, .f32⟩ : BufTy).Contents (Elt F)) = shapeCast S1x64 (m ((c : Thread nD τ).loc main_arg8)) shapeCasts_S64_S1x64 := by
  show StableHlo.after hostOps3 (V6 m (outsF m) c) (Proc.devRef .tc main_v48) = _
  rw [after3_bias, show V6 m (outsF m) c (Proc.devRef .tc main_arg8) = m ((c : Thread nD τ).loc main_arg8) from V6_arg8 m c]
theorem V7_v47 (c : Dev nD) :
    (V7 m (outsF m) c main_v47 : (⟨S100000x1, .i32⟩ : BufTy).Contents (Elt F)) = shapeCast S100000x1 (m ((c : Thread nD τ).loc main_arg2)) shapeCasts_S100000_S100000x1 := by
  show StableHlo.after hostOps3 (V6 m (outsF m) c) (Proc.devRef .tc main_v47) = _
  rw [after3_batch, show V6 m (outsF m) c (Proc.devRef .tc main_arg2) = m ((c : Thread nD τ).loc main_arg2) from V6_arg2 m c]

theorem V9_v57 (c : Dev nD) :
    (V9 m (outsF m) c main_v57 : (⟨S256x2, .f32⟩ : BufTy).Contents (Elt F))
      = tailOf (o8a m c) (o8b m c) (m ((c : Thread nD τ).loc main_arg9)) (m ((c : Thread nD τ).loc main_arg10)) := by
  show StableHlo.after hostOps4 (V8 m (outsF m) c) (Proc.devRef .tc main_v57) = _
  rw [after4_result, show V8 m (outsF m) c (Proc.devRef .tc main_v49_0) = o8a m c from V8_v49_0 m c,
    show V8 m (outsF m) c (Proc.devRef .tc main_v49_1) = o8b m c from V8_v49_1 m c,
    show V8 m (outsF m) c (Proc.devRef .tc main_arg9) = m ((c : Thread nD τ).loc main_arg9) from V8_arg9 m c,
    show V8 m (outsF m) c (Proc.devRef .tc main_arg10) = m ((c : Thread nD τ).loc main_arg10) from V8_arg10 m c]

end Cert.KernelIdeal.Rg

end
-- ==== Proof.KDinv.lean ====
import proofs.«428185_j66005057405150_3_alg».proof.Proof.HostK
import proofs.«428185_j66005057405150_3_alg».proof.Proof.LibIndexMaps
import proofs.«428185_j66005057405150_3_alg».proof.Proof.EdgeIdx
import Idealize.ShloMosaic.Lib.Pipeline.Value
import Idealize.ShloMosaic.Lib.ValueIdx
import Idealize.ShloMosaic.PureOps.Ideal.Laws

set_option pp.maxSteps 5000
set_option pp.deepTerms false

noncomputable section

namespace Cert.KernelIdeal.HostK

open Cert.KernelIdeal Cert.KernelIdeal.Gen Cert.GcnSpec Cert.Gcn.IndexMaps
open Idealize.ShloMosaic Idealize.ShloMosaic.ValueIdx
open scoped BigOperators

theorem ofBits_one_f32 : Ideal.ofBits .f32 0x3F800000#32 = 1 := by
  simp [Ideal.ofBits, Ideal.ieee, -EReal.coe_mul]; norm_num

set_option maxHeartbeats 50000 in

theorem col_of_vec_apply {α : Type} (v : S100000.Idx → α) (n : Fin 100000) :
    shapeCast S100000x1 v shapeCasts_S100000_S100000x1 (ix2 n (0 : Fin 1)) = v (ix1 n) :=
  shapeCast_apply v shapeCasts_S100000_S100000x1 (ix2 n (0 : Fin 1)) (ix1 n) (by
    rw [Shape.rowMajor_val_two, Shape.rowMajor_val_one]; show n.val = n.val * 1 + 0; omega)

set_option maxHeartbeats 50000 in

theorem hostRsqrt_apply (v : FVec Ideal S100000 .f32) (i : S100000.Idx) : Host.rsqrt v i = Ideal.rsqrt (v i) := rfl

set_option maxHeartbeats 50000 in

theorem splat_vec_apply (b : BitVec 32) (i : S100000.Idx) :
    broadcastInDim S100000 ![] bcast_S_S100000 (constant (F := Ideal) S_ .f32 b) i = Ideal.ofBits .f32 b := rfl

set_option maxHeartbeats 50000 in
theorem splat_edges_apply (b : BitVec 32) (i : S1250000.Idx) :
    broadcastInDim S1250000 ![] bcast_S_S1250000 (constant (F := Ideal) S_ .f32 b) i = Ideal.ofBits .f32 b := rfl

end Cert.KernelIdeal.HostK

end
-- ==== Proof.DinvAt.lean ====
import proofs.«428185_j66005057405150_3_alg».proof.Proof.HostK
import proofs.«428185_j66005057405150_3_alg».proof.Proof.KDinv
import proofs.«428185_j66005057405150_3_alg».proof.Proof.LibIndexMaps
import proofs.«428185_j66005057405150_3_alg».proof.Proof.EdgeIdx
import Idealize.ShloMosaic.Lib.Pipeline.Value
import Idealize.ShloMosaic.Lib.ValueIdx
import Idealize.ShloMosaic.PureOps.Ideal.Laws

noncomputable section

namespace Cert.KernelIdeal.HostK

open Cert.KernelIdeal Cert.KernelIdeal.Gen Cert.GcnSpec Cert.Gcn.IndexMaps
open Idealize.ShloMosaic Idealize.ShloMosaic.ValueIdx
open scoped BigOperators

set_option maxHeartbeats 50000 in

theorem row1_slice_apply {α : Type} (x : S2x1250000.Idx → α) (e : Fin 1250000) :
    extractStridedSlice S1x1250000 ![1, 0] x slices_S2x1250000_S1x1250000_1_0 (ix2 (0 : Fin 1) e) = x (ix2 (1 : Fin 2) e) :=
  extractStridedSlice_apply ![1, 0] x slices_S2x1250000_S1x1250000_1_0 (ix2 (0 : Fin 1) e) (ix2 (1 : Fin 2) e) (fun a => by
    rcases fin2_cases a with rfl | rfl
    · show (1 : ℕ) = 1 + 0; rfl
    · show e.val = 0 + e.val; omega)

set_option maxHeartbeats 50000 in

theorem row_as_vec_apply {α : Type} (x : S1x1250000.Idx → α) (e : Fin 1250000) :
    shapeCast S1250000 x shapeCasts_S1x1250000_S1250000 (ix1 e) = x (ix2 (0 : Fin 1) e) :=
  shapeCast_apply x shapeCasts_S1x1250000_S1250000 (ix1 e) (ix2 (0 : Fin 1) e) (by
    rw [Shape.rowMajor_val_two, Shape.rowMajor_val_one]; show 0 * 1250000 + e.val = e.val; omega)

set_option maxHeartbeats 50000 in

theorem vec_as_col_apply {α : Type} (v : S1250000.Idx → α) (e : Fin 1250000) :
    broadcastInDim S1250000x1 ![0] bcast_S1250000_S1250000x1_0 v (ix2 e (0 : Fin 1)) = v (ix1 e) :=
  broadcastInDim_apply (![0] : Fin 1 → Fin 2) bcast_S1250000_S1250000x1_0 v (ix2 e (0 : Fin 1)) (ix1 e) (fun a => by
    obtain rfl : a = 0 := Subsingleton.elim _ _; rfl)

set_option maxHeartbeats 50000 in

theorem dstCol_apply (ei : (⟨S2x1250000, .i32⟩ : BufTy).Contents (Elt Ideal)) (e : Fin 1250000) :
    dstCol (F := Ideal) ei (ix2 e (0 : Fin 1)) = ei (ix2 (1 : Fin 2) e) := by
  unfold dstCol
  rw [vec_as_col_apply, row_as_vec_apply, row1_slice_apply]

set_option maxHeartbeats 50000 in

theorem scatterAdd_nodes_eq (x : FVec Ideal S100000 .f32) (idx : IVec S1250000x1 32) (upd : FVec Ideal S1250000 .f32) :
    Host.scatterAdd scatter_S100000_S1250000x1_S1250000_n_0_0_1 x idx upd
      = Ideal.hostScatterAdd scatter_S100000_S1250000x1_S1250000_n_0_0_1 x idx upd := rfl

set_option maxHeartbeats 50000 in

theorem ones_count_apply (idx : IVec S1250000x1 32) (n : Fin 100000) :
    Ideal.hostScatterAdd scatter_S100000_S1250000x1_S1250000_n_0_0_1
        (broadcastInDim S100000 ![] bcast_S_S100000 (constant (F := Ideal) S_ .f32 0x00000000#32)) idx
        (broadcastInDim S1250000 ![] bcast_S_S1250000 (constant (F := Ideal) S_ .f32 0x3F800000#32)) (ix1 n)
      = 0 + ∑ e : Fin 1250000, if (idx (ix2 e (0 : Fin 1))).toInt = ((n.val : ℕ) : Int) then (1 : EReal) else 0 := by
  rw [hostScatterAdd1_apply scatter_S100000_S1250000x1_S1250000_n_0_0_1 rfl rfl rfl rfl, splat_vec_apply, Ideal.ofBits_zero_f32]
  refine congrArg (fun s => (0 : EReal) + s) (Finset.sum_congr rfl fun e _ => ?_)
  rw [splat_edges_apply, ofBits_one_f32]

set_option maxHeartbeats 50000 in

theorem dinv_of_col_apply (idx : IVec S1250000x1 32) (n : Fin 100000) :
    shapeCast S100000x1
        (Host.rsqrt (addf
          (Host.scatterAdd scatter_S100000_S1250000x1_S1250000_n_0_0_1
            (broadcastInDim S100000 ![] bcast_S_S100000 (constant (F := Ideal) S_ .f32 0x00000000#32))
            idx
            (broadcastInDim S1250000 ![] bcast_S_S1250000 (constant (F := Ideal) S_ .f32 0x3F800000#32)))
          (broadcastInDim S100000 ![] bcast_S_S100000 (constant (F := Ideal) S_ .f32 0x3F800000#32))))
        shapeCasts_S100000_S100000x1 (ix2 n (0 : Fin 1))
      = Ideal.rsqrt ((0 + ∑ e : Fin 1250000, if (idx (ix2 e (0 : Fin 1))).toInt = ((n.val : ℕ) : Int) then (1 : EReal) else 0) + 1) := by
  rw [col_of_vec_apply, hostRsqrt_apply, addf_apply, splat_vec_apply, ofBits_one_f32, scatterAdd_nodes_eq, ones_count_apply]

set_option maxHeartbeats 50000 in

theorem dinvCol_apply (ei : (⟨S2x1250000, .i32⟩ : BufTy).Contents (Elt Ideal)) (n : Fin 100000) :
    dinvCol (F := Ideal) ei (ix2 n (0 : Fin 1))
      = Ideal.rsqrt ((0 + ∑ e : Fin 1250000, if endsAt ei e n then (1 : EReal) else 0) + 1) := by
  unfold dinvCol
  refine (dinv_of_col_apply (dstCol (F := Ideal) ei) n).trans ?_
  have hsum : (∑ e : Fin 1250000, if (dstCol (F := Ideal) ei (ix2 e (0 : Fin 1))).toInt = ((n.val : ℕ) : Int) then (1 : EReal) else 0)
      = ∑ e : Fin 1250000, if endsAt ei e n then (1 : EReal) else 0 :=
    Finset.sum_congr rfl fun e _ => by rw [dstCol_apply]; exact if_congr Iff.rfl rfl rfl
  rw [hsum]

theorem sum_ones_real {ι : Type} (s : Finset ι) (p : ι → Prop) [DecidablePred p] :
    ∃ r : ℝ, 0 ≤ r ∧ (∑ e ∈ s, if p e then (1 : EReal) else 0) = (r : EReal) := by
  classical
  induction s using Finset.induction_on with
  | empty => exact ⟨0, le_refl _, by rw [Finset.sum_empty, EReal.coe_zero]⟩
  | insert a s ha ih =>
    obtain ⟨r, hr, hs⟩ := ih
    rw [Finset.sum_insert ha, hs]
    by_cases hp : p a
    · exact ⟨1 + r, by linarith, by rw [if_pos hp, EReal.coe_add, EReal.coe_one]⟩
    · exact ⟨r, hr, by rw [if_neg hp, zero_add]⟩

theorem rsqrt_pos_real (x : ℝ) (hx : 0 < x) : ∃ y : ℝ, 0 < y ∧ Ideal.rsqrt (x : EReal) = (y : EReal) := by
  refine ⟨(Real.sqrt x)⁻¹, inv_pos.mpr (Real.sqrt_pos.mpr hx), ?_⟩
  rw [Ideal.rsqrt_coe, if_neg (not_lt.mpr hx.le), if_neg hx.ne']

set_option maxHeartbeats 50000 in

theorem dinvCol_pos_real (ei : (⟨S2x1250000, .i32⟩ : BufTy).Contents (Elt Ideal)) (n : Fin 100000) :
    ∃ y : ℝ, 0 < y ∧ dinvCol (F := Ideal) ei (ix2 n (0 : Fin 1)) = (y : EReal) := by
  obtain ⟨r, hr, hs⟩ := sum_ones_real (Finset.univ : Finset (Fin 1250000)) (fun e => endsAt ei e n)
  obtain ⟨y, hy, hrs⟩ := rsqrt_pos_real (r + 1) (by linarith)
  refine ⟨y, hy, ?_⟩
  rw [dinvCol_apply, hs, zero_add, ← EReal.coe_one, ← EReal.coe_add, hrs]

theorem dinvCol_nonneg (ei : (⟨S2x1250000, .i32⟩ : BufTy).Contents (Elt Ideal)) (n : Fin 100000) :
    0 ≤ dinvCol (F := Ideal) ei (ix2 n (0 : Fin 1)) := by
  obtain ⟨y, hy, h⟩ := dinvCol_pos_real ei n
  rw [h]
  exact EReal.coe_nonneg.mpr hy.le

theorem dinvCol_ne_top (ei : (⟨S2x1250000, .i32⟩ : BufTy).Contents (Elt Ideal)) (n : Fin 100000) :
    dinvCol (F := Ideal) ei (ix2 n (0 : Fin 1)) ≠ ⊤ := by
  obtain ⟨y, hy, h⟩ := dinvCol_pos_real ei n
  rw [h]
  exact EReal.coe_ne_top y

end Cert.KernelIdeal.HostK

end
-- ==== Proof.KEdges.lean ====
import proofs.«428185_j66005057405150_3_alg».proof.Proof.HostK
import proofs.«428185_j66005057405150_3_alg».proof.Proof.DinvAt
import proofs.«428185_j66005057405150_3_alg».proof.Proof.EdgeIdx
import Idealize.ShloMosaic.Lib.StableHlo.Run
import Idealize.ShloMosaic.Lib.Pipeline.Value
import Idealize.ShloMosaic.Lib.ValueIdx

noncomputable section

namespace Cert.KernelIdeal.HostK

open Cert.KernelIdeal Cert.KernelIdeal.Gen Cert.GcnSpec Cert.Gcn.IndexMaps
open Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ)

theorem V1_src (c : Dev nD) :
    (V1 m c main_v1 : (⟨S1250000, .i32⟩ : BufTy).Contents (Elt F))
      = shapeCast S1250000 (extractStridedSlice S1x1250000 ![0, 0] (m ((c : Thread nD τ).loc main_arg1)) slices_S2x1250000_S1x1250000_0_0) shapeCasts_S1x1250000_S1250000 := by
  show StableHlo.after hostOps0 (fun b => m (c, b)) (Proc.devRef .tc main_v1) = _
  after_results
  rfl

theorem V1_dst (c : Dev nD) :
    (V1 m c main_v3 : (⟨S1250000, .i32⟩ : BufTy).Contents (Elt F))
      = shapeCast S1250000 (extractStridedSlice S1x1250000 ![1, 0] (m ((c : Thread nD τ).loc main_arg1)) slices_S2x1250000_S1x1250000_1_0) shapeCasts_S1x1250000_S1250000 := by
  show StableHlo.after hostOps0 (fun b => m (c, b)) (Proc.devRef .tc main_v3) = _
  after_results
  rfl

set_option maxHeartbeats 50000 in

theorem row0_slice_apply {α : Type} (x : S2x1250000.Idx → α) (e : Fin 1250000) :
    extractStridedSlice S1x1250000 ![0, 0] x slices_S2x1250000_S1x1250000_0_0 (ix2 (0 : Fin 1) e) = x (ix2 (0 : Fin 2) e) :=
  extractStridedSlice_apply ![0, 0] x slices_S2x1250000_S1x1250000_0_0 (ix2 (0 : Fin 1) e) (ix2 (0 : Fin 2) e) (fun a => by
    rcases fin2_cases a with rfl | rfl
    · show (0 : ℕ) = 0 + 0; rfl
    · show e.val = 0 + e.val; omega)

set_option maxHeartbeats 50000 in

theorem V1_src_apply (c : Dev nD) (e : Fin 1250000) :
    (V1 m c main_v1 : (⟨S1250000, .i32⟩ : BufTy).Contents (Elt F)) (ix1 e)
      = (m ((c : Thread nD τ).loc main_arg1) : (⟨S2x1250000, .i32⟩ : BufTy).Contents (Elt F)) (ix2 (0 : Fin 2) e) := by
  rw [V1_src]
  exact (row_as_vec_apply _ e).trans (row0_slice_apply _ e)

set_option maxHeartbeats 50000 in

theorem V1_dst_apply (c : Dev nD) (e : Fin 1250000) :
    (V1 m c main_v3 : (⟨S1250000, .i32⟩ : BufTy).Contents (Elt F)) (ix1 e)
      = (m ((c : Thread nD τ).loc main_arg1) : (⟨S2x1250000, .i32⟩ : BufTy).Contents (Elt F)) (ix2 (1 : Fin 2) e) := by
  rw [V1_dst]
  exact (row_as_vec_apply _ e).trans (row1_slice_apply _ e)

end Cert.KernelIdeal.HostK

end
-- ==== Proof.AggAt.lean ====
import proofs.«428185_j66005057405150_3_alg».proof.Proof.HostK
import proofs.«428185_j66005057405150_3_alg».proof.Proof.LibIndexMaps
import proofs.«428185_j66005057405150_3_alg».proof.Proof.LibGatherClamp
import proofs.«428185_j66005057405150_3_alg».proof.Proof.EdgeIdx
import Idealize.ShloMosaic.Lib.Pipeline.Value
import Idealize.ShloMosaic.Lib.ValueIdx
import Idealize.ShloMosaic.PureOps.Ideal.Laws

noncomputable section

namespace Cert.KernelIdeal.HostK

open Cert.KernelIdeal Cert.KernelIdeal.Gen Cert.GcnSpec Cert.Gcn.IndexMaps Cert.Gcn.GatherClamp
open Idealize.ShloMosaic Idealize.ShloMosaic.ValueIdx
open scoped BigOperators

set_option maxHeartbeats 50000 in

theorem normW_lane (w : BitVec 32) :
    Scalar.select (IntOp.cmpi .slt w 0#32) (IntOp.addi w 100000#32) w = normW w := by
  unfold Scalar.select IntOp.cmpi IntOp.addi normW
  cases hs : w.slt 0#32
  · rfl
  · rfl

set_option maxHeartbeats 50000 in

theorem edgeCol_apply {α : Type} (v : S1250000.Idx → α) (e : Fin 1250000) :
    broadcastInDim S1250000x1 ![0] bcast_S1250000_S1250000x1_0 v (ix2 e (0 : Fin 1)) = v (ix1 e) :=
  broadcastInDim_apply (![0] : Fin 1 → Fin 2) bcast_S1250000_S1250000x1_0 v (ix2 e (0 : Fin 1)) (ix1 e) (fun a => by
    obtain rfl : a = 0 := Subsingleton.elim _ _; rfl)

set_option maxHeartbeats 50000 in

theorem norm_words_apply (v : IVec S1250000 32) (i : S1250000.Idx) :
    select (cmpi .slt v (broadcastInDim S1250000 ![] bcast_S_S1250000 (constantI S_ 32 0#32)))
        (addi v (broadcastInDim S1250000 ![] bcast_S_S1250000 (constantI S_ 32 100000#32))) v i
      = Scalar.select (IntOp.cmpi .slt (v i) 0#32) (IntOp.addi (v i) 100000#32) (v i) := rfl

set_option maxHeartbeats 50000 in

theorem normCol_apply (v : (⟨S1250000, .i32⟩ : BufTy).Contents (Elt Ideal)) (e : Fin 1250000) :
    normCol (F := Ideal) v (ix2 e (0 : Fin 1)) = normW (v (ix1 e)) := by
  unfold normCol
  rw [edgeCol_apply, norm_words_apply, normW_lane]

set_option maxHeartbeats 50000 in

theorem splat_nodes_apply (b : BitVec 32) (i : S100000x64.Idx) :
    broadcastInDim S100000x64 ![] bcast_S_S100000x64 (constant (F := Ideal) S_ .f32 b) i = Ideal.ofBits .f32 b := rfl

set_option maxHeartbeats 50000 in

theorem scatterAdd_rows_eq (x : FVec Ideal S100000x64 .f32) (idx : IVec S1250000x1 32) (upd : FVec Ideal S1250000x64 .f32) :
    Host.scatterAdd scatter_S100000x64_S1250000x1_S1250000x64_1_0_0_1 x idx upd
      = Ideal.hostScatterAdd scatter_S100000x64_S1250000x1_S1250000x64_1_0_0_1 x idx upd := rfl

set_option maxHeartbeats 50000 in

theorem rowsum_apply (idx : IVec S1250000x1 32) (upd : S1250000x64.Idx → EReal) (n : Fin 100000) (j : Fin 64) :
    Ideal.hostScatterAdd scatter_S100000x64_S1250000x1_S1250000x64_1_0_0_1
        (broadcastInDim S100000x64 ![] bcast_S_S100000x64 (constant (F := Ideal) S_ .f32 0x00000000#32)) idx upd (ix2 n j)
      = 0 + ∑ e : Fin 1250000, if (idx (ix2 e (0 : Fin 1))).toInt = ((n.val : ℕ) : Int) then upd (ix2 e j) else 0 := by
  rw [hostScatterAdd2_apply scatter_S100000x64_S1250000x1_S1250000x64_1_0_0_1 rfl rfl rfl rfl, splat_nodes_apply, Ideal.ofBits_zero_f32]

set_option maxHeartbeats 50000 in

theorem gathered_apply (x : S100000x64.Idx → EReal) (idx : IVec S1250000x1 32) (e : Fin 1250000) (j : Fin 64) :
    Host.gather gather_S100000x64_S1250000x1_S1250000x64_1_0_n_n_0_1_164 x idx (ix2 e j)
      = x (ix2 (rowOf (idx (ix2 e (0 : Fin 1)))) j) :=
  gather2_clamp_apply (by decide : 0 < 100000) gather_S100000x64_S1250000x1_S1250000x64_1_0_n_n_0_1_164 rfl rfl rfl rfl rfl x idx e j

set_option maxHeartbeats 100000 in

theorem aggOf_apply (h : (⟨S100000x64, .f32⟩ : BufTy).Contents (Elt Ideal)) (src dst : (⟨S1250000, .i32⟩ : BufTy).Contents (Elt Ideal))
    (n : Fin 100000) (j : Fin 64) :
    aggOf (F := Ideal) h src dst (ix2 n j)
      = 0 + ∑ e : Fin 1250000, if (dst (ix1 e)).toInt = ((n.val : ℕ) : Int) then h (ix2 (rowOf (normW (src (ix1 e)))) j) else 0 := by
  unfold aggOf
  rw [scatterAdd_rows_eq]
  refine (rowsum_apply _ _ n j).trans ?_
  refine congrArg (fun s => (0 : EReal) + s) (Finset.sum_congr rfl fun e _ => ?_)
  rw [edgeCol_apply, gathered_apply, normCol_apply]

end Cert.KernelIdeal.HostK

end
-- ==== Proof.GcnLaw.lean ====
import Mathlib.Data.EReal.Operations
import Mathlib.Data.EReal.Inv
import Mathlib.Algebra.BigOperators.Group.Finset.Basic

namespace Cert.GcnLaw

open scoped BigOperators

-- A nonnegative factor other than +∞ distributes over a finite sum of extended reals.
theorem mul_sum_of_nonneg_ne_top {ι : Type*} (s : Finset ι) (f : ι → EReal) {d : EReal} (h0 : 0 ≤ d) (ht : d ≠ ⊤) :
    d * ∑ i ∈ s, f i = ∑ i ∈ s, d * f i := by
  classical
  induction s using Finset.induction_on with
  | empty => simp
  | insert a s ha ih => rw [Finset.sum_insert ha, Finset.sum_insert ha, EReal.left_distrib_of_nonneg_of_ne_top h0 ht, ih]

theorem mul_ite_zero (d : EReal) (p : Prop) [Decidable p] (v : EReal) : d * (if p then v else 0) = if p then d * v else 0 := by
  split <;> simp

-- Scaling a layer's sum by d afterwards is scaling every edge term and the self term beforehand, when 0 ≤ d < +∞.
theorem layer_eq {ι : Type*} [Fintype ι] (sel : ι → Prop) [DecidablePred sel] (a hs : ι → EReal) (hu b : EReal)
    {d : EReal} (h0 : 0 ≤ d) (ht : d ≠ ⊤) :
    d * ((0 + ∑ e, if sel e then a e * hs e else 0) + d * hu) + b
      = ((0 + ∑ e, if sel e then (a e * d) * hs e else 0) + (d * d) * hu) + b := by
  congr 1
  rw [EReal.left_distrib_of_nonneg_of_ne_top h0 ht, EReal.left_distrib_of_nonneg_of_ne_top h0 ht, mul_zero,
    mul_sum_of_nonneg_ne_top _ _ h0 ht]

  have hsum : (∑ e, d * if sel e then a e * hs e else 0) = ∑ e, if sel e then (a e * d) * hs e else 0 :=
    Finset.sum_congr rfl fun e _ => by
      rw [mul_ite_zero]
      by_cases h : sel e
      · simp only [h, if_true]
        calc d * (a e * hs e) = (d * a e) * hs e := (mul_assoc d (a e) (hs e)).symm
          _ = (a e * d) * hs e := by rw [mul_comm d (a e)]
      · simp only [h, if_false]
  have hself : d * (d * hu) = (d * d) * hu := (mul_assoc d d hu).symm
  rw [hsum, hself]

theorem zero_add_sum_guard_congr {ι : Type*} [Fintype ι] (p q : ι → Prop) [DecidablePred p] [DecidablePred q]
    (f g : ι → EReal) (hpq : ∀ e, p e ↔ q e) (hfg : ∀ e, f e = g e) :
    (0 : EReal) + ∑ e, (if p e then f e else 0) = 0 + ∑ e, (if q e then g e else 0) := by
  congr 1
  refine Finset.sum_congr rfl fun e _ => ?_
  rw [hfg e]
  exact if_congr (hpq e) rfl rfl

theorem zero_add_sum_congr_of_guard {ι : Type*} [Fintype ι] (p : ι → Prop) [DecidablePred p]
    (f g : ι → EReal) (hfg : ∀ e, p e → f e = g e) :
    (0 : EReal) + ∑ e, (if p e then f e else 0) = 0 + ∑ e, (if p e then g e else 0) := by
  congr 1
  refine Finset.sum_congr rfl fun e _ => ?_
  by_cases h : p e
  · simp only [h, if_true]; exact hfg e h
  · simp only [h, if_false]

theorem sum_eq_zero_add_sum {ι : Type*} [Fintype ι] (f g : ι → EReal) (h : ∀ i, f i = g i) :
    ∑ i, f i = 0 + ∑ i, g i := by
  rw [zero_add]
  exact Finset.sum_congr rfl fun i _ => h i

end Cert.GcnLaw
-- ==== Proof.Val0.lean ====
import proofs.«428185_j66005057405150_3_alg».proof.Proof.Rg0
import proofs.«428185_j66005057405150_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.KernelIdeal.Rg Cert.GcnSpec Idealize.ShloMosaic.ValueIdx
open Idealize.ShloMosaic Idealize.ShloMosaic.TcCoe Idealize.SL.Sem
open Idealize.ShloMosaic.Pipeline (Grid Window)
open scoped BigOperators

/-- Into the zero accumulator the product is the plain sum over the one contracted axis: left (r, k) times right (k, j). -/
theorem dot_apply (lhs : FVec Ideal S5000x64 .bf16) (rhs : FVec Ideal S64x64 .bf16) (r : Fin 5000) (j : Fin 64) :
    matmul dot_S5000x64_S64x64_S5000x64_1_0_0_1_n_n none lhs rhs (constant (F := Ideal) S5000x64 .f32 0x00000000#32) (ix2 r j)
      = ∑ k : Fin 64, lhs (ix2 r k) * rhs (ix2 k j) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  exact congrArg₂ (· * ·) (congrArg lhs (Shape.idx_ext₂ rfl rfl)) (congrArg rhs (Shape.idx_ext₂ rfl rfl))

/-- A column broadcast along the rows' 64 entries reads the row's one entry. -/
theorem rows_broadcast (x : S5000x1.Idx → EReal) (r : Fin 5000) (j : Fin 64) :
    broadcastTo S5000x64 x broadcasts_S5000x1_S5000x64 (ix2 r j) = x (ix2 r (0 : Fin 1)) :=
  broadcastTo_apply x _ _ _ (Fin.forall_fin_two.2 ⟨rfl, rfl⟩)

/-- On an axis where point t's block index is p, an entry of the block sits in the array at p times the block size plus its offset. -/
theorem emb_at {G : Grid} (w : Window sig G) (t : Fin G.N) {a : Fin w.shape.rank} {p : ℕ} (h : w.index t a = p)
    (y : (w.xblock (G.coords t)).Idx) : ((w.rect t).emb y a : ℕ) = p * w.size a + y a := by
  rw [← h]
  exact w.rect_emb_val t y a

/-- Rounding to bf16 changes no extended real: of blocks that are rows 5000 p … 5000 p + 4999 of x and d and all of w, the payload is the same rows of scaled x w d. -/
theorem block0_eq (x : NF.Idx → EReal) (w : FF.Idx → EReal) (d : NC.Idx → EReal)
    (x0 : Vec Ideal S5000x64 .f32) (x1 : Vec Ideal S64x64 .f32) (x2 : Vec Ideal S5000x1 .f32) (p : ℕ) (hp : p < 20)
    (h0 : ∀ (r : Fin 5000) (k : Fin 64), x0 (ix2 r k) = x (ix2 (⟨p * 5000 + r.val, by omega⟩ : Fin 100000) k))
    (h1 : ∀ k j : Fin 64, x1 (ix2 k j) = w (ix2 k j))
    (h2 : ∀ r : Fin 5000, x2 (ix2 r (0 : Fin 1)) = d (ix2 (⟨p * 5000 + r.val, by omega⟩ : Fin 100000) (0 : Fin 1)))
    (r : Fin 5000) (j : Fin 64) (n : Fin 100000) (hn : n.val = p * 5000 + r.val) (j' : Fin 64) (hj : j'.val = j.val) :
    k0_pay1 (F := Ideal) x0 x1 x2 (ix2 r j) = scaled x w d n j' := by
  rw [show n = ⟨p * 5000 + r.val, by omega⟩ from Fin.ext hn, show j' = j from Fin.ext hj]
  unfold k0_pay1 scaled
  rw [mulf_apply, dot_apply, shapeCast_self, rows_broadcast, h2]
  exact congrArg _ (Finset.sum_congr rfl fun k _ => congrArg₂ (· * ·) (h0 r k) (h1 k j))

variable (V : (c : Dev nD) → (b : Ref sig .tc) → Buf (Elt Ideal) ((c : Thread nD τ).loc b))

theorem blocks0_at : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

def G0 (c : Dev nD) : S100000x64.Idx → EReal :=
  fun i => scaled (V c main_arg0) (V c main_arg3) (V c main_v11) (i 0) (i 1)

theorem flushed0 (c : Dev nD) (t : Fin cfg0.N) :
    (dat0 (F := Ideal) V c).flushed 3 t = ((cfg0.win 3).blk t).view.read (Elt Ideal) (G0 V c) := by
  show (cfg0.win 3).cut (grid0.coords t) ((dat0 (F := Ideal) V c).after 3 t) = _
  rw [after0_3, out0_3_eq]
  obtain ⟨e00, e01, e10, e11, e20, e21, e30, e31⟩ := blocks0_at t
  funext y
  exact (congrArg (k0_pay1 (F := Ideal) _ _ _) (eq_ix2 y)).trans
    (block0_eq (V c main_arg0) (V c main_arg3) (V c main_v11) (iblk0 V c 0 t) (iblk0 V c 1 t) (iblk0 V c 2 t) t.val (lt_of_lt_of_eq t.isLt N_0)
      (fun r k => congrArg (V c main_arg0) (Shape.idx_ext₂ (emb_at win0_0 t e00 _) (win0_0.rect_emb_val_of_index_zero t _ e01 _)))
      (fun k j => congrArg (V c main_arg3) (Shape.idx_ext₂ (win0_1.rect_emb_val_of_index_zero t _ e10 _) (win0_1.rect_emb_val_of_index_zero t _ e11 _)))
      (fun r => congrArg (V c main_v11) (Shape.idx_ext₂ (emb_at win0_2 t e20 _) (win0_2.rect_emb_val_of_index_zero t _ e21 _)))
      (y 0) (y 1) (((cfg0.win 3).blk t).view.emb y 0) (emb_at win0_3 t e30 y)
      (((cfg0.win 3).blk t).view.emb y 1) (win0_3.rect_emb_val_of_index_zero t _ e31 y))

/-- Row n lies in block n / 5000 at offset n % 5000; the three regions' outputs are tiled alike. -/
theorem cover_rows (i : S100000x64.Idx) : ∃ t : Fin cfg0.N, (cfg0.win 3).flush t = true ∧ i ∈ ((cfg0.win 3).blk t).view.set := by
  have hi : (i 0).val < 100000 := (i 0).isLt
  obtain ⟨t, ht⟩ : ∃ t : Fin cfg0.N, t.val = (i 0).val / 5000 := ⟨⟨_, lt_of_lt_of_eq (by omega) N_0.symm⟩, rfl⟩
  obtain ⟨-, -, -, -, -, -, e30, e31⟩ := blocks0_at t
  refine ⟨t, flush0_3 t, ?_⟩
  rw [show i = ((cfg0.win 3).blk t).view.emb (ix2 ⟨(i 0).val % 5000, Nat.mod_lt _ (by decide)⟩ (i 1)) from
    (Shape.idx_ext₂ ((emb_at win0_3 t (e30.trans ht) _).trans (Nat.div_add_mod' _ _))
      (win0_3.rect_emb_val_of_index_zero t _ e31 _)).symm]
  exact View.emb_mem_set _ _

theorem final0 (c : Dev nD) (n : Fin 100000) (j : Fin 64) :
    (dat0 (F := Ideal) V c).arrAt 3 cfg0.N (ix2 n j) = scaled (V c main_arg0) (V c main_arg3) (V c main_v11) n j :=
  congrFun ((dat0 (F := Ideal) V c).arrAt_eq_of_cover 3 (G0 V c) (fun t _ => flushed0 V c t) cover_rows) (ix2 n j)

end Cert.KernelIdeal.Val

end
-- ==== Proof.Val1.lean ====
import proofs.«428185_j66005057405150_3_alg».proof.Proof.Rg1
import proofs.«428185_j66005057405150_3_alg».proof.Proof.Val0

noncomputable section

namespace Cert.KernelIdeal.Val

open Cert.KernelIdeal Cert.KernelIdeal.Gen Cert.KernelIdeal.Rg Cert.GcnSpec Idealize.ShloMosaic.ValueIdx
open Idealize.ShloMosaic Idealize.ShloMosaic.TcCoe Idealize.SL.Sem
open scoped BigOperators

variable (V : (c : Dev nD) → (b : Ref sig .tc) → Buf (Elt Ideal) ((c : Thread nD τ).loc b))

/-- Rounding to bf16 changes no extended real: of blocks that are rows 5000 p … 5000 p + 4999 of a, h, d and all of b and w, the payload is the same rows of next a h d b w. -/
theorem block1_eq (a h : NF.Idx → EReal) (d : NC.Idx → EReal) (b : BF.Idx → EReal) (w : FF.Idx → EReal)
    (x0 x1 : Vec Ideal S5000x64 .f32) (x2 : Vec Ideal S5000x1 .f32) (x3 : Vec Ideal S1x64 .f32) (x4 : Vec Ideal S64x64 .f32)
    (p : ℕ) (hp : p < 20)
    (h0 : ∀ (r : Fin 5000) (k : Fin 64), x0 (ix2 r k) = a (ix2 (⟨p * 5000 + r.val, by omega⟩ : Fin 100000) k))
    (h1 : ∀ (r : Fin 5000) (k : Fin 64), x1 (ix2 r k) = h (ix2 (⟨p * 5000 + r.val, by omega⟩ : Fin 100000) k))
    (h2 : ∀ r : Fin 5000, x2 (ix2 r (0 : Fin 1)) = d (ix2 (⟨p * 5000 + r.val, by omega⟩ : Fin 100000) (0 : Fin 1)))
    (h3 : ∀ k : Fin 64, x3 (ix2 (0 : Fin 1) k) = b (ix2 (0 : Fin 1) k))
    (h4 : ∀ k j : Fin 64, x4 (ix2 k j) = w (ix2 k j))
    (r : Fin 5000) (j : Fin 64) (n : Fin 100000) (hn : n.val = p * 5000 + r.val) (j' : Fin 64) (hj : j'.val = j.val) :
    k1_pay1 (F := Ideal) x2 x0 x1 x3 x4 x2 (ix2 r j) = next a h d b w n j' := by
  rw [show n = ⟨p * 5000 + r.val, by omega⟩ from Fin.ext hn, show j' = j from Fin.ext hj]
  unfold k1_pay1 next
  simp only [shapeCast_self]
  rw [mulf_apply, rows_broadcast, dot_apply, h2]
  refine congrArg _ (Finset.sum_congr rfl fun k _ => ?_)
  rw [truncf_apply, truncf_apply, maximumf_apply, broadcast_apply, addf_apply, mulf_apply, addf_apply, rows_broadcast, broadcastTo_1b_ab_apply, h0, h1, h2, h3, h4]
  show max _ (Ideal.ofBits .f32 0x00000000#32) * _ = _
  rw [Ideal.ofBits_zero_f32]

def G1 (c : Dev nD) : S100000x64.Idx → EReal :=
  fun i => next (V c main_v22) (V c main_v12) (V c main_v11) (V c main_v23) (V c main_arg5) (i 0) (i 1)

theorem blocks1_at : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem flushed1 (c : Dev nD) (t : Fin cfg1.N) :
    (dat1 (F := Ideal) V c).flushed 5 t = ((cfg1.win 5).blk t).view.read (Elt Ideal) (G1 V c) := by
  show (cfg1.win 5).cut (grid1.coords t) ((dat1 V c).after 5 t) = _
  rw [after1_5, out1_5_eq]
  obtain ⟨e00, e01, e10, e11, e20, e21, e30, e31, e40, e41, e50, e51⟩ := blocks1_at t
  funext y
  exact (congrArg (k1_pay1 (F := Ideal) _ _ _ _ _ _) (eq_ix2 y)).trans
    (block1_eq (V c main_v22) (V c main_v12) (V c main_v11) (V c main_v23) (V c main_arg5)
      (iblk1 V c 0 t) (iblk1 V c 1 t) (iblk1 V c 2 t) (iblk1 V c 3 t) (iblk1 V c 4 t) t.val (lt_of_lt_of_eq t.isLt N_1)
      (fun r k => congrArg (V c main_v22) (Shape.idx_ext₂ (emb_at win1_0 t e00 _) (win1_0.rect_emb_val_of_index_zero t _ e01 _)))
      (fun r k => congrArg (V c main_v12) (Shape.idx_ext₂ (emb_at win1_1 t e10 _) (win1_1.rect_emb_val_of_index_zero t _ e11 _)))
      (fun r => congrArg (V c main_v11) (Shape.idx_ext₂ (emb_at win1_2 t e20 _) (win1_2.rect_emb_val_of_index_zero t _ e21 _)))
      (fun k => congrArg (V c main_v23) (Shape.idx_ext₂ (win1_3.rect_emb_val_of_index_zero t _ e30 _) (win1_3.rect_emb_val_of_index_zero t _ e31 _)))
      (fun k j => congrArg (V c main_arg5) (Shape.idx_ext₂ (win1_4.rect_emb_val_of_index_zero t _ e40 _) (win1_4.rect_emb_val_of_index_zero t _ e41 _)))
      (y 0) (y 1) (((cfg1.win 5).blk t).view.emb y 0) (emb_at win1_5 t e50 y)
      (((cfg1.win 5).blk t).view.emb y 1) (win1_5.rect_emb_val_of_index_zero t _ e51 y))

theorem final1 (c : Dev nD) (n : Fin 100000) (j : Fin 64) :
    (dat1 (F := Ideal) V c).arrAt 5 cfg1.N (ix2 n j)
      = next (V c main_v22) (V c main_v12) (V c main_v11) (V c main_v23) (V c main_arg5) n j :=
  congrFun ((dat1 (F := Ideal) V c).arrAt_eq_of_cover 5 (G1 V c) (fun t _ => flushed1 V c t) cover_rows) (ix2 n j)

end Cert.KernelIdeal.Val

end
-- ==== Proof.Val2.lean ====
import proofs.«428185_j66005057405150_3_alg».proof.Proof.Rg2
import proofs.«428185_j66005057405150_3_alg».proof.Proof.Val1

noncomputable section

namespace Cert.KernelIdeal.Val

open Cert.KernelIdeal Cert.KernelIdeal.Gen Cert.KernelIdeal.Rg Cert.GcnSpec Idealize.ShloMosaic.ValueIdx
open Idealize.ShloMosaic Idealize.ShloMosaic.TcCoe Idealize.SL.Sem
open scoped BigOperators

variable (V : (c : Dev nD) → (b : Ref sig .tc) → Buf (Elt Ideal) ((c : Thread nD τ).loc b))

def G2 (c : Dev nD) : S100000x64.Idx → EReal :=
  fun i => next (V c main_v34) (V c main_v24) (V c main_v11) (V c main_v35) (V c main_arg7) (i 0) (i 1)

/-- Region 2 applies region 1's payload over the same tiling, to its own arrays. -/
theorem flushed2 (c : Dev nD) (t : Fin cfg2.N) :
    (dat2 (F := Ideal) V c).flushed 5 t = ((cfg2.win 5).blk t).view.read (Elt Ideal) (G2 V c) := by
  show (cfg2.win 5).cut (grid2.coords t) ((dat2 V c).after 5 t) = _
  rw [after2_5, out2_5_eq]
  obtain ⟨e00, e01, e10, e11, e20, e21, e30, e31, e40, e41, e50, e51⟩ := blocks1_at t
  funext y
  exact (congrArg (k2_pay1 (F := Ideal) _ _ _ _ _ _) (eq_ix2 y)).trans
    (block1_eq (V c main_v34) (V c main_v24) (V c main_v11) (V c main_v35) (V c main_arg7)
      (iblk2 V c 0 t) (iblk2 V c 1 t) (iblk2 V c 2 t) (iblk2 V c 3 t) (iblk2 V c 4 t) t.val (lt_of_lt_of_eq t.isLt N_2)
      (fun r k => congrArg (V c main_v34) (Shape.idx_ext₂ (emb_at win2_0 t e00 _) (win2_0.rect_emb_val_of_index_zero t _ e01 _)))
      (fun r k => congrArg (V c main_v24) (Shape.idx_ext₂ (emb_at win2_1 t e10 _) (win2_1.rect_emb_val_of_index_zero t _ e11 _)))
      (fun r => congrArg (V c main_v11) (Shape.idx_ext₂ (emb_at win2_2 t e20 _) (win2_2.rect_emb_val_of_index_zero t _ e21 _)))
      (fun k => congrArg (V c main_v35) (Shape.idx_ext₂ (win2_3.rect_emb_val_of_index_zero t _ e30 _) (win2_3.rect_emb_val_of_index_zero t _ e31 _)))
      (fun k j => congrArg (V c main_arg7) (Shape.idx_ext₂ (win2_4.rect_emb_val_of_index_zero t _ e40 _) (win2_4.rect_emb_val_of_index_zero t _ e41 _)))
      (y 0) (y 1) (((cfg2.win 5).blk t).view.emb y 0) (emb_at win2_5 t e50 y)
      (((cfg2.win 5).blk t).view.emb y 1) (win2_5.rect_emb_val_of_index_zero t _ e51 y))

theorem final2 (c : Dev nD) (n : Fin 100000) (j : Fin 64) :
    (dat2 (F := Ideal) V c).arrAt 5 cfg2.N (ix2 n j)
      = next (V c main_v34) (V c main_v24) (V c main_v11) (V c main_v35) (V c main_arg7) n j :=
  congrFun ((dat2 (F := Ideal) V c).arrAt_eq_of_cover 5 (G2 V c) (fun t _ => flushed2 V c t) cover_rows) (ix2 n j)

end Cert.KernelIdeal.Val

end
-- ==== Proof.KPoint.lean ====
import proofs.«428185_j66005057405150_3_alg».proof.Proof.Fam
import proofs.«428185_j66005057405150_3_alg».proof.Proof.KVals
import proofs.«428185_j66005057405150_3_alg».proof.Proof.KEdges
import proofs.«428185_j66005057405150_3_alg».proof.Proof.AggAt
import proofs.«428185_j66005057405150_3_alg».proof.Proof.DinvAt
import proofs.«428185_j66005057405150_3_alg».proof.Proof.GcnLaw
import proofs.«428185_j66005057405150_3_alg».proof.Proof.Val0
import proofs.«428185_j66005057405150_3_alg».proof.Proof.Val1
import proofs.«428185_j66005057405150_3_alg».proof.Proof.Val2

noncomputable section

namespace Cert.KernelIdeal.KPoint

open Cert.KernelIdeal Cert.KernelIdeal.Gen Cert.KernelIdeal.Rg Cert.KernelIdeal.Val Cert.KernelIdeal.HostK Cert.GcnSpec
open Idealize.ShloMosaic Idealize.ShloMosaic.TcCoe Idealize.ShloMosaic.ValueIdx
open scoped BigOperators

variable (m : (ℓ : Loc nD τ sig) → Buf (Elt Ideal) ℓ) (c : Dev nD)

abbrev ei : (⟨S2x1250000, .i32⟩ : BufTy).Contents (Elt Ideal) := m ((c : Thread nD τ).loc main_arg1)

abbrev dcol : (⟨S100000x1, .f32⟩ : BufTy).Contents (Elt Ideal) := dinvCol (F := Ideal) (ei m c)

abbrev brow (b : (⟨S64, .f32⟩ : BufTy).Contents (Elt Ideal)) : (⟨S1x64, .f32⟩ : BufTy).Contents (Elt Ideal) := shapeCast S1x64 b shapeCasts_S64_S1x64

theorem W1_arg0 : W1 m c main_arg0 = m ((c : Thread nD τ).loc main_arg0) := V1_of m c main_arg0 (by decide)
theorem W1_arg3 : W1 m c main_arg3 = m ((c : Thread nD τ).loc main_arg3) := V1_of m c main_arg3 (by decide)
theorem W1_v11 : (W1 m c main_v11 : (⟨S100000x1, .f32⟩ : BufTy).Contents (Elt Ideal)) = dcol m c := V1_dinv m c

theorem U3_is : U3 m c = V3 m (outsF m) c := (V3_eq m (o8a m) (o8b m) c).symm
theorem U5_is : U5 m c = V5 m (outsF m) c := (V5_eq m (o8a m) (o8b m) c).symm
theorem U7_is : U7 m c = V7 m (outsF m) c := (V7_eq m (o8a m) (o8b m) c).symm

theorem W3_v22 : (W3 m c main_v22 : (⟨S100000x64, .f32⟩ : BufTy).Contents (Elt Ideal)) = aggOf (o2 m c) (V1 m c main_v1) (V1 m c main_v3) := by
  show U3 m c main_v22 = _; rw [U3_is]; exact V3_v22 m c
theorem W3_v12 : W3 m c main_v12 = o2 m c := by show U3 m c main_v12 = _; rw [U3_is]; exact V3_v12 m c
theorem W3_v11 : (W3 m c main_v11 : (⟨S100000x1, .f32⟩ : BufTy).Contents (Elt Ideal)) = dcol m c := by
  show U3 m c main_v11 = _; rw [U3_is]; exact (V3_v11 m c).trans (V1_dinv m c)
theorem W3_v23 : (W3 m c main_v23 : (⟨S1x64, .f32⟩ : BufTy).Contents (Elt Ideal)) = brow (m ((c : Thread nD τ).loc main_arg4)) := by
  show U3 m c main_v23 = _; rw [U3_is]; exact V3_v23 m c
theorem W3_arg5 : W3 m c main_arg5 = m ((c : Thread nD τ).loc main_arg5) := by show U3 m c main_arg5 = _; rw [U3_is]; exact V3_arg5 m c

theorem W5_v34 : (W5 m c main_v34 : (⟨S100000x64, .f32⟩ : BufTy).Contents (Elt Ideal)) = aggOf (o4 m c) (V1 m c main_v1) (V1 m c main_v3) := by
  show U5 m c main_v34 = _; rw [U5_is]; exact V5_v34 m c
theorem W5_v24 : W5 m c main_v24 = o4 m c := by show U5 m c main_v24 = _; rw [U5_is]; exact V5_v24 m c
theorem W5_v11 : (W5 m c main_v11 : (⟨S100000x1, .f32⟩ : BufTy).Contents (Elt Ideal)) = dcol m c := by
  show U5 m c main_v11 = _; rw [U5_is]; exact (V5_v11 m c).trans (V1_dinv m c)
theorem W5_v35 : (W5 m c main_v35 : (⟨S1x64, .f32⟩ : BufTy).Contents (Elt Ideal)) = brow (m ((c : Thread nD τ).loc main_arg6)) := by
  show U5 m c main_v35 = _; rw [U5_is]; exact V5_v35 m c
theorem W5_arg7 : W5 m c main_arg7 = m ((c : Thread nD τ).loc main_arg7) := by show U5 m c main_arg7 = _; rw [U5_is]; exact V5_arg7 m c

theorem W7_v46 : (W7 m c main_v46 : (⟨S100000x64, .f32⟩ : BufTy).Contents (Elt Ideal)) = aggOf (o6 m c) (V1 m c main_v1) (V1 m c main_v3) := by
  show U7 m c main_v46 = _; rw [U7_is]; exact V7_v46 m c
theorem W7_v36 : W7 m c main_v36 = o6 m c := by show U7 m c main_v36 = _; rw [U7_is]; exact V7_v36 m c
theorem W7_v11 : (W7 m c main_v11 : (⟨S100000x1, .f32⟩ : BufTy).Contents (Elt Ideal)) = dcol m c := by
  show U7 m c main_v11 = _; rw [U7_is]; exact (V7_v11 m c).trans (V1_dinv m c)
theorem W7_v48 : (W7 m c main_v48 : (⟨S1x64, .f32⟩ : BufTy).Contents (Elt Ideal)) = brow (m ((c : Thread nD τ).loc main_arg8)) := by
  show U7 m c main_v48 = _; rw [U7_is]; exact V7_v48 m c
theorem W7_v47 : (W7 m c main_v47 : (⟨S100000x1, .i32⟩ : BufTy).Contents (Elt Ideal)) = shapeCast S100000x1 (m ((c : Thread nD τ).loc main_arg2)) shapeCasts_S100000_S100000x1 := by
  show U7 m c main_v47 = _; rw [U7_is]; exact V7_v47 m c

theorem o2_apply (n : Fin 100000) (j : Fin 64) :
    o2 m c (ix2 n j) = scaled (m ((c : Thread nD τ).loc main_arg0)) (m ((c : Thread nD τ).loc main_arg3)) (dcol m c) n j := by
  have h := final0 (W1 m) c n j
  rw [W1_arg0, W1_arg3, W1_v11] at h
  exact h

theorem o4_apply (n : Fin 100000) (j : Fin 64) :
    o4 m c (ix2 n j) = next (aggOf (o2 m c) (V1 m c main_v1) (V1 m c main_v3)) (o2 m c) (dcol m c)
      (brow (m ((c : Thread nD τ).loc main_arg4))) (m ((c : Thread nD τ).loc main_arg5)) n j := by
  have h := final1 (W3 m) c n j
  rw [W3_v22, W3_v12, W3_v11, W3_v23, W3_arg5] at h
  exact h

theorem o6_apply (n : Fin 100000) (j : Fin 64) :
    o6 m c (ix2 n j) = next (aggOf (o4 m c) (V1 m c main_v1) (V1 m c main_v3)) (o4 m c) (dcol m c)
      (brow (m ((c : Thread nD τ).loc main_arg6))) (m ((c : Thread nD τ).loc main_arg7)) n j := by
  have h := final2 (W5 m) c n j
  rw [W5_v34, W5_v24, W5_v11, W5_v35, W5_arg7] at h
  exact h

set_option maxHeartbeats 100000 in

theorem agg_apply (h : (⟨S100000x64, .f32⟩ : BufTy).Contents (Elt Ideal)) (n : Fin 100000) (j : Fin 64) :
    aggOf (F := Ideal) h (V1 m c main_v1) (V1 m c main_v3) (ix2 n j)
      = 0 + ∑ e : Fin 1250000, if endsAt (ei m c) e n then h (ix2 (srcRow (ei m c) e) j) else 0 := by
  rw [aggOf_apply h (V1 m c main_v1) (V1 m c main_v3) n j]
  exact Cert.GcnLaw.zero_add_sum_guard_congr
    (fun e : Fin 1250000 => ((V1 m c main_v3 : (⟨S1250000, .i32⟩ : BufTy).Contents (Elt Ideal)) (ix1 e)).toInt = ((n.val : ℕ) : Int))
    (fun e => endsAt (ei m c) e n)
    (fun e => h (ix2 (rowOf (normW ((V1 m c main_v1 : (⟨S1250000, .i32⟩ : BufTy).Contents (Elt Ideal)) (ix1 e)))) j))
    (fun e => h (ix2 (srcRow (ei m c) e) j))
    (fun e => by rw [V1_dst_apply m c e]; exact Iff.rfl)
    (fun e => by rw [V1_src_apply m c e]; rfl)

end Cert.KernelIdeal.KPoint

end
-- ==== Proof.GcnMath.lean ====
import proofs.«428185_j66005057405150_3_alg».proof.Proof.GcnLaw
import proofs.«428185_j66005057405150_3_alg».proof.Proof.EdgeIdx

noncomputable section

namespace Cert.GcnSpec

open scoped BigOperators

def layerF (D : Fin 100000 → EReal) (ei : EdgeArr.Idx → BitVec 32) (H : Fin 100000 → Fin 64 → EReal) (b : Fin 64 → EReal)
    (n : Fin 100000) (j : Fin 64) : EReal :=
  ((0 + ∑ e : Fin 1250000, if endsAt ei e n then (D (srcRow ei e) * D (dstRow ei e)) * H (srcRow ei e) j else 0)
    + (D n * D n) * H n j) + b j

theorem kernel_layer_eq (D : Fin 100000 → EReal) (ei : EdgeArr.Idx → BitVec 32) (H : Fin 100000 → Fin 64 → EReal)
    (b : Fin 64 → EReal) (n : Fin 100000) (j : Fin 64) (h0 : 0 ≤ D n) (ht : D n ≠ ⊤) :
    D n * ((0 + ∑ e : Fin 1250000, if endsAt ei e n then D (srcRow ei e) * H (srcRow ei e) j else 0) + D n * H n j) + b j
      = layerF D ei H b n j := by
  unfold layerF
  rw [Cert.GcnLaw.layer_eq (fun e => endsAt ei e n) (fun e => D (srcRow ei e)) (fun e => H (srcRow ei e) j) (H n j) (b j) h0 ht]
  rw [Cert.GcnLaw.zero_add_sum_congr_of_guard (fun e => endsAt ei e n)
    (fun e => (D (srcRow ei e) * D n) * H (srcRow ei e) j)
    (fun e => (D (srcRow ei e) * D (dstRow ei e)) * H (srcRow ei e) j)
    (fun e he => by rw [dstRow_of_endsAt ei e n he])]

end Cert.GcnSpec

end
-- ==== Proof.GcnSteps.lean ====
import proofs.«428185_j66005057405150_3_alg».proof.Proof.Spec
import proofs.«428185_j66005057405150_3_alg».proof.Proof.GcnMath

noncomputable section

namespace Cert.GcnSpec

open Idealize.ShloMosaic Idealize.ShloMosaic.ValueIdx
open scoped BigOperators

section Step

variable (a h : NF.Idx → EReal) (d : NC.Idx → EReal) (b : BF.Idx → EReal) (ei : EdgeArr.Idx → BitVec 32)
  (H : Fin 100000 → Fin 64 → EReal) (bv : Fin 64 → EReal)
  (hh : ∀ n k, h (ix2 n k) = d (ix2 n (0 : Fin 1)) * H n k)
  (ha : ∀ n k, a (ix2 n k) = 0 + ∑ e : Fin 1250000, if endsAt ei e n then h (ix2 (srcRow ei e) k) else 0)
  (hb : ∀ k, b (ix2 (0 : Fin 1) k) = bv k)
  (h0 : ∀ n, 0 ≤ d (ix2 n (0 : Fin 1))) (ht : ∀ n, d (ix2 n (0 : Fin 1)) ≠ ⊤)

include hh ha hb h0 ht in

theorem pre_eq (n : Fin 100000) (k : Fin 64) :
    d (ix2 n (0 : Fin 1)) * (a (ix2 n k) + h (ix2 n k)) + b (ix2 (0 : Fin 1) k)
      = layerF (fun n => d (ix2 n (0 : Fin 1))) ei H bv n k := by
  rw [ha n k, hh n k, hb k,
    Cert.GcnLaw.zero_add_sum_guard_congr (fun e => endsAt ei e n) (fun e => endsAt ei e n)
      (fun e => h (ix2 (srcRow ei e) k)) (fun e => d (ix2 (srcRow ei e) (0 : Fin 1)) * H (srcRow ei e) k)
      (fun _ => Iff.rfl) (fun e => hh (srcRow ei e) k)]
  exact kernel_layer_eq (fun n => d (ix2 n (0 : Fin 1))) ei H bv n k (h0 n) (ht n)

include hh ha hb h0 ht in

theorem next_eq (w : FF.Idx → EReal) (n : Fin 100000) (j : Fin 64) :
    next a h d b w n j
      = d (ix2 n (0 : Fin 1)) * ∑ k : Fin 64, max (layerF (fun n => d (ix2 n (0 : Fin 1))) ei H bv n k) 0 * w (ix2 k j) := by
  unfold next
  refine congrArg (fun s => d (ix2 n (0 : Fin 1)) * s) (Finset.sum_congr rfl fun k _ => ?_)
  rw [pre_eq a h d b ei H bv hh ha hb h0 ht n k]

include hh ha hb h0 ht in

theorem last_eq (n : Fin 100000) (j : Fin 64) :
    last a h d b n j = layerF (fun n => d (ix2 n (0 : Fin 1))) ei H bv n j := by
  unfold last
  exact pre_eq a h d b ei H bv hh ha hb h0 ht n j

end Step

end Cert.GcnSpec

end
-- ==== Proof.KMath.lean ====
import proofs.«428185_j66005057405150_3_alg».proof.Proof.KPoint
import proofs.«428185_j66005057405150_3_alg».proof.Proof.GcnSteps

noncomputable section

namespace Cert.KernelIdeal.KPoint

open Cert.KernelIdeal Cert.KernelIdeal.Gen Cert.KernelIdeal.Rg Cert.KernelIdeal.HostK Cert.GcnSpec
open Idealize.ShloMosaic Idealize.ShloMosaic.TcCoe Idealize.ShloMosaic.ValueIdx
open scoped BigOperators

variable (m : (ℓ : Loc nD τ sig) → Buf (Elt Ideal) ℓ) (c : Dev nD)

def D (n : Fin 100000) : EReal := dcol m c (ix2 n (0 : Fin 1))
theorem D_nonneg (n : Fin 100000) : 0 ≤ dcol m c (ix2 n (0 : Fin 1)) := dinvCol_nonneg (ei m c) n
theorem D_ne_top (n : Fin 100000) : dcol m c (ix2 n (0 : Fin 1)) ≠ ⊤ := dinvCol_ne_top (ei m c) n

def bvec (b : (⟨1, ![64]⟩ : Shape).Idx → EReal) (k : Fin 64) : EReal := b (ix1 k)

set_option maxHeartbeats 50000 in

theorem brow_apply (b : (⟨S64, .f32⟩ : BufTy).Contents (Elt Ideal)) (k : Fin 64) : brow b (ix2 (0 : Fin 1) k) = bvec b k :=
  shapeCast_apply b shapeCasts_S64_S1x64 (ix2 (0 : Fin 1) k) (ix1 k) (by
    rw [Shape.rowMajor_val_two, Shape.rowMajor_val_one]; show k.val = 0 * 64 + k.val; omega)

abbrev xA0 : NF.Idx → EReal := m ((c : Thread nD τ).loc main_arg0)
abbrev xA2 : (⟨1, ![100000]⟩ : Shape).Idx → BitVec 32 := m ((c : Thread nD τ).loc main_arg2)
abbrev xA3 : FF.Idx → EReal := m ((c : Thread nD τ).loc main_arg3)
abbrev xA4 : (⟨1, ![64]⟩ : Shape).Idx → EReal := m ((c : Thread nD τ).loc main_arg4)
abbrev xA5 : FF.Idx → EReal := m ((c : Thread nD τ).loc main_arg5)
abbrev xA6 : (⟨1, ![64]⟩ : Shape).Idx → EReal := m ((c : Thread nD τ).loc main_arg6)
abbrev xA7 : FF.Idx → EReal := m ((c : Thread nD τ).loc main_arg7)
abbrev xA8 : (⟨1, ![64]⟩ : Shape).Idx → EReal := m ((c : Thread nD τ).loc main_arg8)
abbrev xA9 : (⟨2, ![64, 2]⟩ : Shape).Idx → EReal := m ((c : Thread nD τ).loc main_arg9)
abbrev xA10 : (⟨1, ![2]⟩ : Shape).Idx → EReal := m ((c : Thread nD τ).loc main_arg10)

def H1 (n : Fin 100000) (j : Fin 64) : EReal :=
  ∑ k : Fin 64, xA0 m c (ix2 n k) * xA3 m c (ix2 k j)
def R1 (n : Fin 100000) (k : Fin 64) : EReal :=
  layerF (fun n => dcol m c (ix2 n (0 : Fin 1))) (ei m c) (H1 m c) (bvec (xA4 m c)) n k
def H2 (n : Fin 100000) (j : Fin 64) : EReal :=
  ∑ k : Fin 64, max (R1 m c n k) 0 * xA5 m c (ix2 k j)
def R2 (n : Fin 100000) (k : Fin 64) : EReal :=
  layerF (fun n => dcol m c (ix2 n (0 : Fin 1))) (ei m c) (H2 m c) (bvec (xA6 m c)) n k
def H3 (n : Fin 100000) (j : Fin 64) : EReal :=
  ∑ k : Fin 64, max (R2 m c n k) 0 * xA7 m c (ix2 k j)
def R3 (n : Fin 100000) (k : Fin 64) : EReal :=
  layerF (fun n => dcol m c (ix2 n (0 : Fin 1))) (ei m c) (H3 m c) (bvec (xA8 m c)) n k

theorem o2_eq (n : Fin 100000) (j : Fin 64) : o2 m c (ix2 n j) = dcol m c (ix2 n (0 : Fin 1)) * H1 m c n j :=
  o2_apply m c n j

theorem o4_eq (n : Fin 100000) (j : Fin 64) : o4 m c (ix2 n j) = dcol m c (ix2 n (0 : Fin 1)) * H2 m c n j := by
  rw [o4_apply m c n j]
  exact next_eq (aggOf (o2 m c) (V1 m c main_v1) (V1 m c main_v3)) (o2 m c) (dcol m c) (brow (m ((c : Thread nD τ).loc main_arg4)))
    (ei m c) (H1 m c) (bvec (xA4 m c))
    (fun n k => o2_eq m c n k) (fun n k => agg_apply m c (o2 m c) n k) (fun k => brow_apply _ k)
    (D_nonneg m c) (D_ne_top m c) (m ((c : Thread nD τ).loc main_arg5)) n j

theorem o6_eq (n : Fin 100000) (j : Fin 64) : o6 m c (ix2 n j) = dcol m c (ix2 n (0 : Fin 1)) * H3 m c n j := by
  rw [o6_apply m c n j]
  exact next_eq (aggOf (o4 m c) (V1 m c main_v1) (V1 m c main_v3)) (o4 m c) (dcol m c) (brow (m ((c : Thread nD τ).loc main_arg6)))
    (ei m c) (H2 m c) (bvec (xA6 m c))
    (fun n k => o4_eq m c n k) (fun n k => agg_apply m c (o4 m c) n k) (fun k => brow_apply _ k)
    (D_nonneg m c) (D_ne_top m c) (m ((c : Thread nD τ).loc main_arg7)) n j

theorem last_is_R3 (n : Fin 100000) (j : Fin 64) :
    last (aggOf (o6 m c) (V1 m c main_v1) (V1 m c main_v3)) (o6 m c) (dcol m c) (brow (m ((c : Thread nD τ).loc main_arg8))) n j
      = R3 m c n j :=
  last_eq (aggOf (o6 m c) (V1 m c main_v1) (V1 m c main_v3)) (o6 m c) (dcol m c) (brow (m ((c : Thread nD τ).loc main_arg8)))
    (ei m c) (H3 m c) (bvec (xA8 m c))
    (fun n k => o6_eq m c n k) (fun n k => agg_apply m c (o6 m c) n k) (fun k => brow_apply _ k)
    (D_nonneg m c) (D_ne_top m c) n j

end Cert.KernelIdeal.KPoint

end
-- ==== Proof.TailAt.lean ====
import proofs.«428185_j66005057405150_3_alg».proof.Proof.HostK
import proofs.«428185_j66005057405150_3_alg».proof.Proof.KDinv
import proofs.«428185_j66005057405150_3_alg».proof.Proof.Spec
import Idealize.ShloMosaic.Lib.Pipeline.Value
import Idealize.ShloMosaic.Lib.ValueIdx
import Idealize.ShloMosaic.PureOps.Ideal.Laws

noncomputable section

namespace Cert.KernelIdeal.HostK

open Cert.KernelIdeal Cert.KernelIdeal.Gen Cert.GcnSpec
open Idealize.ShloMosaic Idealize.ShloMosaic.ValueIdx
open scoped BigOperators

theorem tail_dot_apply (lhs : FVec Ideal S256x64 .f32) (rhs : FVec Ideal S64x2 .f32) (g : Fin 256) (cc : Fin 2) :
    Host.dotGeneral dot_S256x64_S64x2_S256x2_1_0_0_1_n_n none lhs rhs (ix2 g cc) = ∑ j : Fin 64, lhs (ix2 g j) * rhs (ix2 j cc) := by
  simp only [Host.dotGeneral]
  rw [Ideal.dotGeneral_apply, ← Equiv.sum_comp (contrEquiv1 dot_S256x64_S64x2_S256x2_1_0_0_1_n_n 64 rfl rfl).symm]
  exact Finset.sum_congr rfl fun k _ => congrArg₂ (· * ·) (congrArg lhs (Shape.idx_ext₂ rfl rfl)) (congrArg rhs (Shape.idx_ext₂ rfl rfl))

set_option maxHeartbeats 50000 in

theorem graph_col_apply {α : Type} (x : S256x1.Idx → α) (g : Fin 256) (j : Fin 64) :
    broadcastInDim S256x64 ![0, 1] bcast_S256x1_S256x64_0_1 x (ix2 g j) = x (ix2 g (0 : Fin 1)) :=
  broadcastInDim_apply (![0, 1] : Fin 2 → Fin 2) bcast_S256x1_S256x64_0_1 x (ix2 g j) (ix2 g (0 : Fin 1)) (fun a => by
    match a with
    | ⟨0, _⟩ => rfl
    | ⟨1, _⟩ => rfl)

set_option maxHeartbeats 50000 in

theorem splat_graphs_apply (b : BitVec 32) (i : S256x1.Idx) :
    broadcastInDim S256x1 ![] bcast_S_S256x1 (constant (F := Ideal) S_ .f32 b) i = Ideal.ofBits .f32 b := rfl

set_option maxHeartbeats 50000 in

theorem pair_as_row_apply {α : Type} (x : S2.Idx → α) (cc : Fin 2) :
    broadcastInDim S1x2 ![1] bcast_S2_S1x2_1 x (ix2 (0 : Fin 1) cc) = x (ix1 cc) :=
  broadcastInDim_apply (![1] : Fin 1 → Fin 2) bcast_S2_S1x2_1 x (ix2 (0 : Fin 1) cc) (ix1 cc) (fun a => by
    obtain rfl : a = 0 := Subsingleton.elim _ _; rfl)

set_option maxHeartbeats 50000 in

theorem row_down_apply {α : Type} (x : S1x2.Idx → α) (g : Fin 256) (cc : Fin 2) :
    broadcastInDim S256x2 ![0, 1] bcast_S1x2_S256x2_0_1 x (ix2 g cc) = x (ix2 (0 : Fin 1) cc) :=
  broadcastInDim_apply (![0, 1] : Fin 2 → Fin 2) bcast_S1x2_S256x2_0_1 x (ix2 g cc) (ix2 (0 : Fin 1) cc) (fun a => by
    match a with
    | ⟨0, _⟩ => rfl
    | ⟨1, _⟩ => rfl)

set_option maxHeartbeats 50000 in

theorem graph_div_apply (a b : FVec Ideal S256x64 .f32) (i : S256x64.Idx) : Host.divf a b i = Ideal.div (a i) (b i) := rfl

set_option maxHeartbeats 100000 in

theorem tailOf_apply (s : (⟨S256x64, .f32⟩ : BufTy).Contents (Elt Ideal)) (n : (⟨S256x1, .f32⟩ : BufTy).Contents (Elt Ideal))
    (wl : (⟨S64x2, .f32⟩ : BufTy).Contents (Elt Ideal)) (bl : (⟨S2, .f32⟩ : BufTy).Contents (Elt Ideal)) (g : Fin 256) (cc : Fin 2) :
    tailOf (F := Ideal) s n wl bl (ix2 g cc)
      = (∑ j : Fin 64, Ideal.div (s (ix2 g j)) (max (n (ix2 g (0 : Fin 1))) 1) * wl (ix2 j cc)) + bl (ix1 cc) := by
  unfold tailOf
  rw [addf_apply, tail_dot_apply, row_down_apply, pair_as_row_apply]
  refine congrArg (fun t => t + bl (ix1 cc)) (Finset.sum_congr rfl fun j _ => ?_)
  rw [graph_div_apply, graph_col_apply, maximumf_apply, splat_graphs_apply, ofBits_one_f32]

theorem word_eq_iff_reads (w : BitVec 32) (g : Fin 256) : w = BitVec.ofNat 32 g.val ↔ w.toInt = ((g.val : ℕ) : Int) := by
  have hg : g.val < 256 := g.isLt
  have hw : w.toNat < 2 ^ 32 := w.isLt
  rw [BitVec.toInt_eq_toNat_cond]
  constructor
  · rintro rfl
    rw [BitVec.toNat_ofNat, Nat.mod_eq_of_lt (by omega : g.val < 2 ^ 32), if_pos (by omega)]
  · intro h
    apply BitVec.eq_of_toNat_eq
    rw [BitVec.toNat_ofNat, Nat.mod_eq_of_lt (by omega : g.val < 2 ^ 32)]
    split at h <;> omega

theorem member_eq (batch : NC.Idx → BitVec 32) (n : Fin 100000) (g : Fin 256) (v : EReal) :
    member batch n g * v = if (batch (ix2 n (0 : Fin 1))).toInt = ((g.val : ℕ) : Int) then v else 0 := by
  unfold member
  by_cases h : batch (ix2 n (0 : Fin 1)) = BitVec.ofNat 32 g.val
  · rw [if_pos h, one_mul, if_pos ((word_eq_iff_reads _ g).mp h)]
  · rw [if_neg h, zero_mul, if_neg (fun h' => h ((word_eq_iff_reads _ g).mpr h'))]

end Cert.KernelIdeal.HostK

end
-- ==== Proof.Val3.lean ====
import proofs.«428185_j66005057405150_3_alg».proof.Proof.Rg3
import proofs.«428185_j66005057405150_3_alg».proof.Proof.Spec
import proofs.«428185_j66005057405150_3_alg».proof.Proof.Val0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Rg Cert.GcnSpec Idealize.ShloMosaic.ValueIdx
open Idealize.ShloMosaic Idealize.ShloMosaic.TcCoe Idealize.SL.Sem
open Idealize.ShloMosaic.Pipeline (Dat)
open scoped BigOperators

private theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

private theorem sitofp_cmpi_eq (a b : BitVec 32) :
    FloatOps.sitofp (F := Ideal) .f32 ((IntOp.cmpi .eq a b).setWidth 32) = if a = b then (1 : EReal) else 0 := by
  show (((((IntOp.cmpi .eq a b).setWidth 32).toInt : ℤ) : ℝ) : EReal) = _
  by_cases h : a = b
  · rw [if_pos h, h]
    have : ((IntOp.cmpi .eq b b).setWidth 32) = 1#32 := by simp [IntOp.cmpi]
    rw [this]; norm_num
  · rw [if_neg h]
    have hb : (a == b) = false := beq_eq_false_iff_ne.mpr h
    have : ((IntOp.cmpi .eq a b).setWidth 32) = 0#32 := by simp [IntOp.cmpi, hb]
    rw [this]; norm_num

private theorem mask_apply (x4 : Vec Ideal S5000x1 .i32) (r : Fin 5000) (g : Fin 256) :
    k3_pay4 (F := Ideal) x4 (ix2 r g) = if x4 (ix2 r (0 : Fin 1)) = BitVec.ofNat 32 g.val then (1 : EReal) else 0 := by
  unfold k3_pay4
  show FloatOps.sitofp (F := Ideal) .f32 ((IntOp.cmpi .eq
      (broadcastTo S5000x256 (shapeCast S5000x1 x4 shapeCasts_S5000x1_S5000x1) broadcasts_S5000x1_S5000x256 (ix2 r g))
      (broadcastTo S5000x256 (iota .tc S1x256 32 [1] iota_S1x256_d1_w32) broadcasts_S1x256_S5000x256 (ix2 r g))).setWidth 32) = _
  rw [broadcastTo_a1_ab_apply, broadcastTo_1b_ab_apply, shapeCast_self, iota_single_apply, sitofp_cmpi_eq]

theorem stepS_apply (x0 x1 : Vec Ideal S5000x64 .f32) (x2 : Vec Ideal S5000x1 .f32) (x3 : Vec Ideal S1x64 .f32) (x4 : Vec Ideal S5000x1 .i32) (g : Fin 256) (j : Fin 64) :
    stepS (F := Ideal) x0 x1 x2 x3 x4 (ix2 g j)
      = ∑ r : Fin 5000, (if x4 (ix2 r (0 : Fin 1)) = BitVec.ofNat 32 g.val then (1 : EReal) else 0) * (x2 (ix2 r (0 : Fin 1)) * (x0 (ix2 r j) + x1 (ix2 r j)) + x3 (ix2 (0 : Fin 1) j)) := by
  unfold stepS
  simp only [matmul]
  rw [Ideal.matmul_constant_zero_apply, ← Equiv.sum_comp (ValueIdx.contrEquiv1 dot_S5000x256_S5000x64_S256x64_0_0_1_1_n_n 5000 rfl rfl).symm]
  refine Finset.sum_congr rfl fun r _ => ?_
  rw [show dot_S5000x256_S5000x64_S256x64_0_0_1_1_n_n.lhsIdx (ix2 g j) ((ValueIdx.contrEquiv1 dot_S5000x256_S5000x64_S256x64_0_0_1_1_n_n 5000 rfl rfl).symm r) = ix2 r g from Shape.idx_ext₂ rfl rfl,
    show dot_S5000x256_S5000x64_S256x64_0_0_1_1_n_n.rhsIdx (ix2 g j) ((ValueIdx.contrEquiv1 dot_S5000x256_S5000x64_S256x64_0_0_1_1_n_n 5000 rfl rfl).symm r) = ix2 r j from Shape.idx_ext₂ rfl rfl, mask_apply]
  simp only [truncf_apply, addf_apply, mulf_apply, broadcastTo_a1_ab_apply, broadcastTo_1b_ab_apply, shapeCast_self]

private theorem one_bf16 : Ideal.ofBits .bf16 0x3F80#16 = 1 := by
  simp [Ideal.ofBits, Ideal.ieee, -EReal.coe_mul]; norm_num

theorem stepC_apply (x4 : Vec Ideal S5000x1 .i32) (g : Fin 256) :
    stepC (F := Ideal) x4 (ix2 g (0 : Fin 1)) = ∑ r : Fin 5000, (if x4 (ix2 r (0 : Fin 1)) = BitVec.ofNat 32 g.val then (1 : EReal) else 0) * 1 := by
  unfold stepC
  simp only [matmul]
  rw [Ideal.matmul_constant_zero_apply, ← Equiv.sum_comp (ValueIdx.contrEquiv1 dot_S5000x256_S5000x1_S256x1_0_0_1_1_n_n 5000 rfl rfl).symm]
  refine Finset.sum_congr rfl fun r _ => ?_
  rw [show dot_S5000x256_S5000x1_S256x1_0_0_1_1_n_n.lhsIdx (ix2 g (0 : Fin 1)) ((ValueIdx.contrEquiv1 dot_S5000x256_S5000x1_S256x1_0_0_1_1_n_n 5000 rfl rfl).symm r) = ix2 r g from Shape.idx_ext₂ rfl rfl,
    mask_apply, broadcast_apply]
  show _ * Ideal.ofBits .bf16 0x3F80#16 = _
  rw [one_bf16]

private def tot (f : Fin 100000 → EReal) (n : ℕ) : EReal := if hn : n < 100000 then f ⟨n, hn⟩ else 0

private theorem tot_of_lt (f : Fin 100000 → EReal) {n : ℕ} (hn : n < 100000) : tot f n = f ⟨n, hn⟩ := dif_pos hn

private theorem sum_blocks {M : Type*} [AddCommMonoid M] (F : ℕ → M) (B : ℕ) :
    ∀ T : ℕ, ∑ t ∈ Finset.range T, ∑ r : Fin B, F (B * t + r.val) = ∑ n ∈ Finset.range (B * T), F n
  | 0 => by simp
  | T + 1 => by
    rw [Finset.sum_range_succ, sum_blocks F B T, Nat.mul_succ, Finset.sum_range_add,
      Fin.sum_univ_eq_sum_range (fun r => F (B * T + r)) B]

private theorem sum_points (f : Fin 100000 → EReal) :
    ∑ t ∈ Finset.range 20, ∑ r : Fin 5000, tot f (5000 * t + r.val) = ∑ n : Fin 100000, f n := by
  rw [sum_blocks (tot f) 5000 20, ← Fin.sum_univ_eq_sum_range (tot f) (5000 * 20)]
  exact Finset.sum_congr rfl fun n _ => tot_of_lt f n.isLt

private theorem zeroS_apply (i : S256x64.Idx) : k3_pay2 (F := Ideal) i = 0 := by
  unfold k3_pay2
  rw [shapeCast_self]
  exact Ideal.ofBits_zero_f32

private theorem zeroC_apply (i : S256x1.Idx) : k3_pay3 (F := Ideal) i = 0 := by
  unfold k3_pay3
  rw [shapeCast_self]
  exact Ideal.ofBits_zero_f32

section Arrays
variable (V : (c : Dev nD) → (b : Ref sig .tc) → Buf (Elt Ideal) ((c : Thread nD τ).loc b))

private abbrev aggA (c : Dev nD) : NF.Idx → EReal := V c main_v46
private abbrev hpreA (c : Dev nD) : NF.Idx → EReal := V c main_v36
private abbrev dinvA (c : Dev nD) : NC.Idx → EReal := V c main_v11
private abbrev biasA (c : Dev nD) : BF.Idx → EReal := V c main_v48
private abbrev batchA (c : Dev nD) : NC.Idx → BitVec 32 := V c main_v47

private abbrev aggB (c : Dev nD) (t : Fin cfg3.N) : Vec Ideal S5000x64 .f32 := iblk3 (F := Ideal) V c 0 t
private abbrev hpreB (c : Dev nD) (t : Fin cfg3.N) : Vec Ideal S5000x64 .f32 := iblk3 (F := Ideal) V c 1 t
private abbrev dinvB (c : Dev nD) (t : Fin cfg3.N) : Vec Ideal S5000x1 .f32 := iblk3 (F := Ideal) V c 2 t
private abbrev biasB (c : Dev nD) (t : Fin cfg3.N) : Vec Ideal S1x64 .f32 := iblk3 (F := Ideal) V c 3 t
private abbrev batchB (c : Dev nD) (t : Fin cfg3.N) : Vec Ideal S5000x1 .i32 := iblk3 (F := Ideal) V c 4 t

private theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

private def node (t : Fin cfg3.N) (r : Fin 5000) : Fin 100000 :=
  ⟨5000 * t.val + r.val, by have hN : cfg3.N = 20 := N_3; have := t.isLt; have := r.isLt; omega⟩

private theorem aggB_apply (c : Dev nD) (t : Fin cfg3.N) (r : Fin 5000) (j : Fin 64) :
    aggB V c t (ix2 r j) = aggA V c (ix2 (node t r) j) := by
  obtain ⟨e0, e1, -⟩ := idx_facts3 t
  exact congrArg (V c main_v46) (Shape.idx_ext₂ ((emb_at win3_0 t e0 _).trans (congrArg (· + r.val) (Nat.mul_comm _ _))) (win3_0.rect_emb_val_of_index_zero t _ e1 _))

private theorem hpreB_apply (c : Dev nD) (t : Fin cfg3.N) (r : Fin 5000) (j : Fin 64) :
    hpreB V c t (ix2 r j) = hpreA V c (ix2 (node t r) j) := by
  obtain ⟨-, -, e0, e1, -⟩ := idx_facts3 t
  exact congrArg (V c main_v36) (Shape.idx_ext₂ ((emb_at win3_1 t e0 _).trans (congrArg (· + r.val) (Nat.mul_comm _ _))) (win3_1.rect_emb_val_of_index_zero t _ e1 _))

private theorem dinvB_apply (c : Dev nD) (t : Fin cfg3.N) (r : Fin 5000) :
    dinvB V c t (ix2 r (0 : Fin 1)) = dinvA V c (ix2 (node t r) (0 : Fin 1)) := by
  obtain ⟨-, -, -, -, e0, e1, -⟩ := idx_facts3 t
  exact congrArg (V c main_v11) (Shape.idx_ext₂ ((emb_at win3_2 t e0 _).trans (congrArg (· + r.val) (Nat.mul_comm _ _))) (win3_2.rect_emb_val_of_index_zero t _ e1 _))

private theorem biasB_apply (c : Dev nD) (t : Fin cfg3.N) (j : Fin 64) :
    biasB V c t (ix2 (0 : Fin 1) j) = biasA V c (ix2 (0 : Fin 1) j) := by
  obtain ⟨-, -, -, -, -, -, e0, e1, -⟩ := idx_facts3 t
  exact congrArg (V c main_v48) (Shape.idx_ext₂ (win3_3.rect_emb_val_of_index_zero t _ e0 _) (win3_3.rect_emb_val_of_index_zero t _ e1 _))

private theorem batchB_apply (c : Dev nD) (t : Fin cfg3.N) (r : Fin 5000) :
    batchB V c t (ix2 r (0 : Fin 1)) = batchA V c (ix2 (node t r) (0 : Fin 1)) := by
  obtain ⟨-, -, -, -, -, -, -, -, e0, e1⟩ := idx_facts3 t
  exact congrArg (V c main_v47) (Shape.idx_ext₂ ((emb_at win3_4 t e0 _).trans (congrArg (· + r.val) (Nat.mul_comm _ _))) (win3_4.rect_emb_val_of_index_zero t _ e1 _))

private abbrev sumTerm (c : Dev nD) (g : Fin 256) (j : Fin 64) (n : Fin 100000) : EReal :=
  member (batchA V c) n g * last (aggA V c) (hpreA V c) (dinvA V c) (biasA V c) n j
private abbrev countTerm (c : Dev nD) (g : Fin 256) (n : Fin 100000) : EReal := member (batchA V c) n g * 1

private theorem stepS_point (c : Dev nD) (t : Fin cfg3.N) (g : Fin 256) (j : Fin 64) :
    stepS (F := Ideal) (aggB V c t) (hpreB V c t) (dinvB V c t) (biasB V c t) (batchB V c t) (ix2 g j)
      = ∑ r : Fin 5000, tot (sumTerm V c g j) (5000 * t.val + r.val) := by
  rw [stepS_apply (aggB V c t) (hpreB V c t) (dinvB V c t) (biasB V c t) (batchB V c t) g j]
  refine Finset.sum_congr rfl fun r _ => ?_
  rw [aggB_apply, hpreB_apply, dinvB_apply, biasB_apply, batchB_apply]
  exact (tot_of_lt (sumTerm V c g j) (node t r).isLt).symm

private theorem stepC_point (c : Dev nD) (t : Fin cfg3.N) (g : Fin 256) :
    stepC (F := Ideal) (batchB V c t) (ix2 g (0 : Fin 1)) = ∑ r : Fin 5000, tot (countTerm V c g) (5000 * t.val + r.val) := by
  rw [stepC_apply (batchB V c t) g]
  refine Finset.sum_congr rfl fun r _ => ?_
  rw [batchB_apply]
  exact (tot_of_lt (countTerm V c g) (node t r).isLt).symm

private theorem fold_sums (c : Dev nD) (g : Fin 256) (j : Fin 64) : ∀ (n : ℕ) (hn : n < cfg3.N),
    (accAt3 (F := Ideal) V c n hn).1 (ix2 g j) = ∑ t ∈ Finset.range (n + 1), ∑ r : Fin 5000, tot (sumTerm V c g j) (5000 * t + r.val)
  | 0, hn => by
    rw [accAt3_zero, Finset.sum_range_one]
    show (addf (F := Ideal) (φ := .f32) (k3_pay2 (F := Ideal)) (stepS (F := Ideal) (aggB V c ⟨0, hn⟩) (hpreB V c ⟨0, hn⟩) (dinvB V c ⟨0, hn⟩) (biasB V c ⟨0, hn⟩) (batchB V c ⟨0, hn⟩))) (ix2 g j) = _
    rw [addf_apply, zeroS_apply, zero_add]
    exact stepS_point V c ⟨0, hn⟩ g j
  | n + 1, hn => by
    rw [accAt3_succ, Finset.sum_range_succ, ← fold_sums c g j n (Nat.lt_of_succ_lt hn)]
    show (addf (F := Ideal) (φ := .f32) (accAt3 (F := Ideal) V c n (Nat.lt_of_succ_lt hn)).1 (stepS (F := Ideal) (aggB V c ⟨n + 1, hn⟩) (hpreB V c ⟨n + 1, hn⟩) (dinvB V c ⟨n + 1, hn⟩) (biasB V c ⟨n + 1, hn⟩) (batchB V c ⟨n + 1, hn⟩))) (ix2 g j) = _
    rw [addf_apply]
    exact congrArg _ (stepS_point V c ⟨n + 1, hn⟩ g j)

private theorem fold_counts (c : Dev nD) (g : Fin 256) : ∀ (n : ℕ) (hn : n < cfg3.N),
    (accAt3 (F := Ideal) V c n hn).2 (ix2 g (0 : Fin 1)) = ∑ t ∈ Finset.range (n + 1), ∑ r : Fin 5000, tot (countTerm V c g) (5000 * t + r.val)
  | 0, hn => by
    rw [accAt3_zero, Finset.sum_range_one]
    show (addf (F := Ideal) (φ := .f32) (k3_pay3 (F := Ideal)) (stepC (F := Ideal) (batchB V c ⟨0, hn⟩))) (ix2 g (0 : Fin 1)) = _
    rw [addf_apply, zeroC_apply, zero_add]
    exact stepC_point V c ⟨0, hn⟩ g
  | n + 1, hn => by
    rw [accAt3_succ, Finset.sum_range_succ, ← fold_counts c g n (Nat.lt_of_succ_lt hn)]
    show (addf (F := Ideal) (φ := .f32) (accAt3 (F := Ideal) V c n (Nat.lt_of_succ_lt hn)).2 (stepC (F := Ideal) (batchB V c ⟨n + 1, hn⟩))) (ix2 g (0 : Fin 1)) = _
    rw [addf_apply]
    exact congrArg _ (stepC_point V c ⟨n + 1, hn⟩ g)

private theorem last_lt : 19 < cfg3.N := by decide

private abbrev tLast : Fin cfg3.N := ⟨19, last_lt⟩

private abbrev resultS (c : Dev nD) : Buf (Elt Ideal) ((c : Thread nD τ).loc main_v49_0) := (accAt3 (F := Ideal) V c 19 last_lt).1
private abbrev resultC (c : Dev nD) : Buf (Elt Ideal) ((c : Thread nD τ).loc main_v49_1) := (accAt3 (F := Ideal) V c 19 last_lt).2

private theorem cut_eq_read5 (X : Vec Ideal S256x64 .f32) :
    (cfg3.win 5).cut (grid3.coords tLast) X = ((cfg3.win 5).blk tLast).view.read (Elt Ideal) X :=
  funext fun y => congrArg X (Shape.idx_ext₂ (win3_5.rect_emb_val_of_index_zero tLast 0 (by decide +kernel) y).symm
    (win3_5.rect_emb_val_of_index_zero tLast 1 (by decide +kernel) y).symm)

private theorem cut_eq_read6 (X : Vec Ideal S256x1 .f32) :
    (cfg3.win 6).cut (grid3.coords tLast) X = ((cfg3.win 6).blk tLast).view.read (Elt Ideal) X :=
  funext fun y => congrArg X (Shape.idx_ext₂ (win3_6.rect_emb_val_of_index_zero tLast 0 (by decide +kernel) y).symm
    (win3_6.rect_emb_val_of_index_zero tLast 1 (by decide +kernel) y).symm)

private theorem flushed5_eq (c : Dev nD) (t : Fin cfg3.N) (hf : (cfg3.win 5).flush t = true) :
    (dat3 (F := Ideal) V c).flushed 5 t = ((cfg3.win 5).blk t).view.read (Elt Ideal) (resultS V c) := by
  have hN : cfg3.N = 20 := N_3
  have h19 : t.val = 19 := by have := (flush3_5 t).mp hf; have := t.isLt; omega
  obtain rfl : t = tLast := Fin.ext h19
  show (cfg3.win 5).cut (grid3.coords tLast) ((dat3 (F := Ideal) V c).after 5 tLast) = _
  rw [after3_5]
  exact cut_eq_read5 _

private theorem flushed6_eq (c : Dev nD) (t : Fin cfg3.N) (hf : (cfg3.win 6).flush t = true) :
    (dat3 (F := Ideal) V c).flushed 6 t = ((cfg3.win 6).blk t).view.read (Elt Ideal) (resultC V c) := by
  have hN : cfg3.N = 20 := N_3
  have h19 : t.val = 19 := by have := (flush3_6 t).mp hf; have := t.isLt; omega
  obtain rfl : t = tLast := Fin.ext h19
  show (cfg3.win 6).cut (grid3.coords tLast) ((dat3 (F := Ideal) V c).after 6 tLast) = _
  rw [after3_6]
  exact cut_eq_read6 _

private theorem final5 (c : Dev nD) : (dat3 (F := Ideal) V c).arrAt 5 cfg3.N = resultS V c :=
  (dat3 (F := Ideal) V c).arrAt_eq_of_cover 5 (resultS V c) (flushed5_eq V c) fun i =>
    ⟨tLast, (flush3_5 tLast).mpr rfl, by
      rw [show i = ((cfg3.win 5).blk tLast).view.emb i from (Shape.idx_ext₂
        (win3_5.rect_emb_val_of_index_zero tLast 0 (by decide +kernel) i) (win3_5.rect_emb_val_of_index_zero tLast 1 (by decide +kernel) i)).symm]
      exact View.emb_mem_set _ _⟩

private theorem final6 (c : Dev nD) : (dat3 (F := Ideal) V c).arrAt 6 cfg3.N = resultC V c :=
  (dat3 (F := Ideal) V c).arrAt_eq_of_cover 6 (resultC V c) (flushed6_eq V c) fun i =>
    ⟨tLast, (flush3_6 tLast).mpr rfl, by
      rw [show i = ((cfg3.win 6).blk tLast).view.emb i from (Shape.idx_ext₂
        (win3_6.rect_emb_val_of_index_zero tLast 0 (by decide +kernel) i) (win3_6.rect_emb_val_of_index_zero tLast 1 (by decide +kernel) i)).symm]
      exact View.emb_mem_set _ _⟩

theorem final3_sums (c : Dev nD) (g : Fin 256) (j : Fin 64) :
    (dat3 (F := Ideal) V c).arrAt 5 cfg3.N (ix2 g j) = sums (V c main_v46) (V c main_v36) (V c main_v11) (V c main_v48) (V c main_v47) g j := by
  rw [final5]
  show (accAt3 (F := Ideal) V c 19 last_lt).1 (ix2 g j) = _
  rw [fold_sums V c g j 19 last_lt]
  unfold sums
  exact sum_points (sumTerm V c g j)

theorem final3_counts (c : Dev nD) (g : Fin 256) :
    (dat3 (F := Ideal) V c).arrAt 6 cfg3.N (ix2 g (0 : Fin 1)) = counts (V c main_v47) g := by
  rw [final6]
  show (accAt3 (F := Ideal) V c 19 last_lt).2 (ix2 g (0 : Fin 1)) = _
  rw [fold_counts V c g 19 last_lt]
  unfold counts
  exact sum_points (countTerm V c g)

end Arrays

end Cert.KernelIdeal.Val

end
-- ==== Proof.KFinal.lean ====
import proofs.«428185_j66005057405150_3_alg».proof.Proof.KMath
import proofs.«428185_j66005057405150_3_alg».proof.Proof.TailAt
import proofs.«428185_j66005057405150_3_alg».proof.Proof.Val3
import proofs.«428185_j66005057405150_3_alg».proof.Proof.RefValue

noncomputable section

namespace Cert.KernelIdeal.KPoint

open Cert.KernelIdeal Cert.KernelIdeal.Gen Cert.KernelIdeal.Rg Cert.KernelIdeal.Val Cert.KernelIdeal.HostK Cert.GcnSpec
open Cert.ReferenceIdeal.RefValue
open Idealize.ShloMosaic Idealize.ShloMosaic.TcCoe Idealize.ShloMosaic.ValueIdx
open scoped BigOperators

variable (m : (ℓ : Loc nD τ sig) → Buf (Elt Ideal) ℓ) (c : Dev nD)

theorem layerF_eq_layer : @layerF = @layer := rfl

theorem D_eq_dv : (fun n => dcol m c (ix2 n (0 : Fin 1))) = dv (ei m c) :=
  funext fun n => dinvCol_apply (ei m c) n

theorem R1_eq : R1 m c = r1 (xA0 m c) (ei m c) (xA3 m c) (xA4 m c) := by
  unfold R1 r1; rw [D_eq_dv, layerF_eq_layer]; rfl
theorem R2_eq : R2 m c = r2 (xA0 m c) (ei m c) (xA3 m c) (xA4 m c) (xA5 m c) (xA6 m c) := by
  unfold R2 r2; rw [D_eq_dv, layerF_eq_layer, show H2 m c = featNext (R1 m c) (xA5 m c) from rfl, R1_eq]; rfl
theorem R3_eq : R3 m c = r3 (xA0 m c) (ei m c) (xA3 m c) (xA4 m c) (xA5 m c) (xA6 m c) (xA7 m c) (xA8 m c) := by
  unfold R3 r3; rw [D_eq_dv, layerF_eq_layer, show H3 m c = featNext (R2 m c) (xA7 m c) from rfl, R2_eq]; rfl

theorem batch_col_apply (n : Fin 100000) :
    (shapeCast S100000x1 (m ((c : Thread nD τ).loc main_arg2)) shapeCasts_S100000_S100000x1 : (⟨S100000x1, .i32⟩ : BufTy).Contents (Elt Ideal)) (ix2 n (0 : Fin 1))
      = xA2 m c (ix1 n) :=
  col_of_vec_apply _ n

theorem o8a_eq (g : Fin 256) (j : Fin 64) :
    o8a m c (ix2 g j) = sumsR (xA2 m c) (r3 (xA0 m c) (ei m c) (xA3 m c) (xA4 m c) (xA5 m c) (xA6 m c) (xA7 m c) (xA8 m c)) g j := by
  have h := final3_sums (W7 m) c g j
  rw [W7_v46, W7_v36, W7_v11, W7_v48, W7_v47] at h
  refine h.trans ?_
  unfold sums sumsR
  rw [← R3_eq]
  exact Cert.GcnLaw.sum_eq_zero_add_sum
    (fun n : Fin 100000 => member (shapeCast S100000x1 (m ((c : Thread nD τ).loc main_arg2)) shapeCasts_S100000_S100000x1) n g
      * last (aggOf (o6 m c) (V1 m c main_v1) (V1 m c main_v3)) (o6 m c) (dcol m c) (brow (m ((c : Thread nD τ).loc main_arg8))) n j)
    (fun n => if (xA2 m c (ix1 n)).toInt = ((g.val : ℕ) : Int) then R3 m c n j else 0)
    (fun n => by rw [member_eq, last_is_R3 m c n j, batch_col_apply m c n])

theorem o8b_eq (g : Fin 256) : o8b m c (ix2 g (0 : Fin 1)) = cntR (xA2 m c) g := by
  have h := final3_counts (W7 m) c g
  rw [W7_v47] at h
  refine h.trans ?_
  unfold counts cntR
  exact Cert.GcnLaw.sum_eq_zero_add_sum
    (fun n : Fin 100000 => member (shapeCast S100000x1 (m ((c : Thread nD τ).loc main_arg2)) shapeCasts_S100000_S100000x1) n g * 1)
    (fun n => if (xA2 m c (ix1 n)).toInt = ((g.val : ℕ) : Int) then (1 : EReal) else 0)
    (fun n => by rw [member_eq, batch_col_apply m c n])

theorem kernel_value (g : Fin 256) (cc : Fin 2) :
    (V9 (F := Ideal) m (outsF m) c main_v57 : (⟨S256x2, .f32⟩ : BufTy).Contents (Elt Ideal)) (ix2 g cc)
      = refOut (xA0 m c) (ei m c) (xA2 m c) (xA3 m c) (xA4 m c) (xA5 m c) (xA6 m c) (xA7 m c) (xA8 m c) (xA9 m c) (xA10 m c) g cc := by
  rw [V9_v57 m c, tailOf_apply]
  unfold refOut
  rw [o8b_eq m c g]
  refine congrArg (fun s => s + xA10 m c (ix1 cc)) (Finset.sum_congr rfl fun j _ => ?_)
  rw [o8a_eq m c g j]

end Cert.KernelIdeal.KPoint

end
-- ==== Proof.lean ====
import proofs.«428185_j66005057405150_3_alg».proof.Defs
import proofs.«428185_j66005057405150_3_alg».proof.Proof.Gen.Kernel
import proofs.«428185_j66005057405150_3_alg».proof.Proof.Gen.Kernel.Skeleton
import proofs.«428185_j66005057405150_3_alg».proof.Proof.Gen.Kernel.Launch
import proofs.«428185_j66005057405150_3_alg».proof.Proof.Gen.Kernel.Regions
import proofs.«428185_j66005057405150_3_alg».proof.Proof.Gen.Kernel.Points
import proofs.«428185_j66005057405150_3_alg».proof.Proof.Gen.KernelIdeal
import proofs.«428185_j66005057405150_3_alg».proof.Proof.Gen.KernelIdeal.Skeleton
import proofs.«428185_j66005057405150_3_alg».proof.Proof.Gen.KernelIdeal.Launch
import proofs.«428185_j66005057405150_3_alg».proof.Proof.Gen.KernelIdeal.Regions
import proofs.«428185_j66005057405150_3_alg».proof.Proof.Gen.KernelIdeal.Points
import proofs.«428185_j66005057405150_3_alg».proof.Proof.Gen.ReferenceIdeal
import proofs.«428185_j66005057405150_3_alg».proof.Proof.Gen.Pre_finite_inputs
import Idealize.ShloMosaic.Adequacy
import Idealize.ShloMosaic.Init
import proofs.«428185_j66005057405150_3_alg».proof.Proof.Frames
import proofs.«428185_j66005057405150_3_alg».proof.Proof.Algebraic
import proofs.«428185_j66005057405150_3_alg».proof.Proof.KFinal

noncomputable section

namespace Cert.Proof

open Idealize.ShloMosaic Idealize.SL.Sem Cert.Kernel

theorem kernelValue : Cert.Proof.Alg.KernelValue :=
  fun m c g cc => Cert.KernelIdeal.KPoint.kernel_value m c g cc

-- Both programs compute the three normalised graph-convolution layers, the per-graph means and the last linear layer; d ≥ 0 and d ≠ +∞ let d move across the edge sums.
theorem claim : Cert.Claim := ⟨Cert.Kernel.Gen.facts, Cert.KernelIdeal.Gen.facts, Cert.ReferenceIdeal.Gen.facts, Cert.Pre_finite_inputs.Gen.facts,
  Cert.Proof.Frames.frame_k, Cert.Proof.Frames.frame_ki, Cert.Proof.Frames.frame_ri, Cert.Proof.Frames.preserves,
  Cert.Proof.Alg.algebraic kernelValue⟩

end Cert.Proof

end
